-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x256 : Shape := ⟨3, ![4, 4096, 256]⟩
abbrev S4x4096x4096 : Shape := ⟨3, ![4, 4096, 4096]⟩
abbrev S256x256 : Shape := ⟨2, ![256, 256]⟩
abbrev S256 : Shape := ⟨1, ![256]⟩
abbrev S_ : Shape := ⟨0, ![]⟩
abbrev S4x4096 : Shape := ⟨2, ![4, 4096]⟩

class Facts : Prop where
  bcast_S_S4x4096x256 : S_.BroadcastsInDim S4x4096x256 (![] : Fin 0 → Fin S4x4096x256.rank)
  reducesTo_S4x4096x256_S_d0_1_2 : S4x4096x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S4x4096x4096 : S_.BroadcastsInDim S4x4096x4096 (![] : Fin 0 → Fin S4x4096x4096.rank)
  reducesTo_S4x4096x4096_S4x4096_d2 : S4x4096x4096.ReducesTo [2] S4x4096
  reducesTo_S4x4096_S_d0_1 : S4x4096.ReducesTo [0, 1] S_

variable [Facts]

def fn_part2 {F : FTy → Type} [FloatOps F] (main_arg1 : IVec S4x4096x4096 32) (main_v33 : IVec S_ 1) : IVec S_ 1 :=
  let main_c_12 : IVec S_ 32 := constantI S_ 32 0#32
  let main_v34 : IVec S4x4096x4096 32 := broadcastInDim S4x4096x4096 ![] bcast_S_S4x4096x4096 main_c_12
  let main_v35 : IVec S4x4096x4096 1 := cmpi .ne main_arg1 main_v34
  let main_c_13 : IVec S_ 1 := constantI S_ 1 0#1
  let main_v36 : IVec S4x4096 1 := (fun x v => Host.reduce IntOp.ori x v reducesTo_S4x4096x4096_S4x4096_d2 h_S_) main_v35 main_c_13
  let main_c_14 : IVec S_ 1 := constantI S_ 1 1#1
  let main_v37 : IVec S_ 1 := (fun x v => Host.reduce IntOp.andi x v reducesTo_S4x4096_S_d0_1 h_S_) main_v36 main_c_14
  let main_v38 : IVec S_ 1 := andi main_v33 main_v37
  main_v38

def fn_part1 {F : FTy → Type} [FloatOps F] (main_arg1 : IVec S4x4096x4096 32) (main_arg5 : FVec F S256 .f32) (main_arg6 : FVec F S256x256 .f32) (main_arg7 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg1 main_v33

def fn {F : FTy → Type} [FloatOps F] (main_arg0 : FVec F S4x4096x256 .f32) (main_arg1 : IVec S4x4096x4096 32) (main_arg2 : FVec F S256x256 .f32) (main_arg3 : FVec F S256 .f32) (main_arg4 : FVec F S256x256 .f32) (main_arg5 : FVec F S256 .f32) (main_arg6 : FVec F S256x256 .f32) (main_arg7 : FVec F S256 .f32) : IVec S_ 1 :=
  let main_v0 : FVec F S4x4096x256 .f32 := Host.absf main_arg0
  let main_cst : FVec F S_ .f32 := constant S_ .f32 0x7F800000#32
  let main_v1 : FVec F S4x4096x256 .f32 := broadcastInDim S4x4096x256 ![] bcast_S_S4x4096x256 main_cst
  let main_v2 : IVec S4x4096x256 1 := cmpf .olt main_v0 main_v1
  let main_c : IVec S_ 1 := constantI S_ 1 1#1
  let main_v3 : IVec S_ 1 := (fun x v => Host.reduce IntOp.andi x v reducesTo_S4x4096x256_S_d0_1_2 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg1 main_arg5 main_arg6 main_arg7 main_v13 main_v16
-- ==== Kernel.lean ====
abbrev S4x4096x256 : Shape := ⟨3, ![4, 4096, 256]⟩
abbrev S4x4096x4096 : Shape := ⟨3, ![4, 4096, 4096]⟩
abbrev S256x256 : Shape := ⟨2, ![256, 256]⟩
abbrev S256 : Shape := ⟨1, ![256]⟩
abbrev S1x1024x256 : Shape := ⟨3, ![1, 1024, 256]⟩
abbrev S1024x256 : Shape := ⟨2, ![1024, 256]⟩
abbrev S1x256 : Shape := ⟨2, ![1, 256]⟩
abbrev S1x4096x256 : Shape := ⟨3, ![1, 4096, 256]⟩
abbrev S1x1024x1024 : Shape := ⟨3, ![1, 1024, 1024]⟩
abbrev S1024x1 : Shape := ⟨2, ![1024, 1]⟩
abbrev S1024x1024 : Shape := ⟨2, ![1024, 1024]⟩
abbrev S1024 : Shape := ⟨1, ![1024]⟩

abbrev nBuf : Space → Nat
  | .hbm => 12
  | .vmem => 27
  | .smem => 0
  | _ => 0

abbrev bufTy : (tb : Table) → Fin (tcTables nBuf tb) → BufTy
  | .hbm, ⟨0, _⟩ => ⟨S4x4096x256, .f32⟩
  | .hbm, ⟨1, _⟩ => ⟨S4x4096x4096, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S4x4096x256, .bf16⟩
  | .hbm, ⟨9, _⟩ => ⟨S4x4096x256, .bf16⟩
  | .hbm, ⟨10, _⟩ => ⟨S4x4096x256, .bf16⟩
  | .hbm, ⟨11, _⟩ => ⟨S4x4096x256, .f32⟩
  | .local _ .vmem, ⟨0, _⟩ => ⟨S1x1024x256, .f32⟩
  | .local _ .vmem, ⟨1, _⟩ => ⟨S1x1024x256, .f32⟩
  | .local _ .vmem, ⟨2, _⟩ => ⟨S256x256, .f32⟩
  | .local _ .vmem, ⟨3, _⟩ => ⟨S256, .f32⟩
  | .local _ .vmem, ⟨4, _⟩ => ⟨S256x256, .f32⟩
  | .local _ .vmem, ⟨5, _⟩ => ⟨S256, .f32⟩
  | .local _ .vmem, ⟨6, _⟩ => ⟨S256x256, .f32⟩
  | .local _ .vmem, ⟨7, _⟩ => ⟨S256, .f32⟩
  | .local _ .vmem, ⟨8, _⟩ => ⟨S1x1024x256, .bf16⟩
  | .local _ .vmem, ⟨9, _⟩ => ⟨S1x1024x256, .bf16⟩
  | .local _ .vmem, ⟨10, _⟩ => ⟨S1x1024x256, .bf16⟩
  | .local _ .vmem, ⟨11, _⟩ => ⟨S1x1024x256, .bf16⟩
  | .local _ .vmem, ⟨12, _⟩ => ⟨S1x1024x256, .bf16⟩
  | .local _ .vmem, ⟨13, _⟩ => ⟨S1x1024x256, .bf16⟩
  | .local _ .vmem, ⟨14, _⟩ => ⟨S1x1024x256, .bf16⟩
  | .local _ .vmem, ⟨15, _⟩ => ⟨S1x1024x256, .bf16⟩
  | .local _ .vmem, ⟨16, _⟩ => ⟨S1x4096x256, .bf16⟩
  | .local _ .vmem, ⟨17, _⟩ => ⟨S1x4096x256, .bf16⟩
  | .local _ .vmem, ⟨18, _⟩ => ⟨S1x4096x256, .bf16⟩
  | .local _ .vmem, ⟨19, _⟩ => ⟨S1x4096x256, .bf16⟩
  | .local _ .vmem, ⟨20, _⟩ => ⟨S1x1024x1024, .i32⟩
  | .local _ .vmem, ⟨21, _⟩ => ⟨S1x1024x1024, .i32⟩
  | .local _ .vmem, ⟨22, _⟩ => ⟨S1x1024x256, .f32⟩
  | .local _ .vmem, ⟨23, _⟩ => ⟨S1x1024x256, .f32⟩
  | .local _ .vmem, ⟨24, _⟩ => ⟨S1024x1, .f32⟩
  | .local _ .vmem, ⟨25, _⟩ => ⟨S1024x1, .f32⟩
  | .local _ .vmem, ⟨26, _⟩ => ⟨S1024x256, .f32⟩
  | _, _ => ⟨S4x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_scratch0 : Ref sig .tc := ⟨.vmem, 24, rfl⟩
abbrev cc1_scratch1 : Ref sig .tc := ⟨.vmem, 25, rfl⟩
abbrev cc1_scratch2 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨3, ![4, 4, 4], ![false, false, false]⟩

def k1_mult1 (i : grid1.Coords) : BitVec 32 :=
  let arg2 : BitVec 32 := BitVec.ofNat 32 (i 2).val
  let c1024_i32 : BitVec 32 := 1024#32
  let v3 : BitVec 32 := Scalar.muli arg2 c1024_i32
  v3
def k1_off1 (i : grid1.Coords) : Fin 3 → Nat :=
  let c0 : Index := 0#32
  let arg2 : BitVec 32 := BitVec.ofNat 32 (i 2).val
  let c1024_i32 : BitVec 32 := 1024#32
  let v3 : BitVec 32 := Scalar.muli arg2 c1024_i32
  let v4 : BitVec 32 := v3
  let v5 : Index := Scalar.indexCast v4
  let c0_1 : Index := 0#32
  ![0, v5.toNat, 0]
def k1_cond2 (i : grid1.Coords) : BitVec 1 :=
  let arg2 : BitVec 32 := BitVec.ofNat 32 (i 2).val
  let c3_i32 : BitVec 32 := 3#32
  let v50 : BitVec 1 := Scalar.cmpi .eq arg2 c3_i32
  let v51 : BitVec 32 := Scalar.extui v50
  let c0_i32_29 : BitVec 32 := 0#32
  let v52 : BitVec 1 := Scalar.cmpi .ne v51 c0_i32_29
  v52

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x4096x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, false]

abbrev stage1_2 : Fin 2 → Memref sig .tc .vmem S1x4096x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 2 → Memref sig .tc .vmem S1x1024x1024 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S1x1024x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  shapeCasts_S1024x256_S1x1024x256 : S1024x256.ShapeCasts S1x1024x256
  packedbf16_S1x1024x256_S1x1024x256_0_0_0 : (Rect.unit (s := S1x1024x256) ![0, 0, 0] S1x1024x256.size inb_S1x1024x256_S1x1024x256_0_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x256 : S1024x1.Broadcasts S1024x256
  dot_S1024x256_S256x256_S1024x256_1_1_0_0_n_n_wf : DotDims.WF S1024x256 S256x256 S1024x256 [1] [1] [0] [0] [] []
  dot_S1024x256_S1024x256_S1024x1024_1_1_0_0_n_n_wf : DotDims.WF S1024x256 S1024x256 S1024x1024 [1] [1] [0] [0] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S4x4096x256.size a
  hwx0_0 : ∀ i : grid0.Coords, EltTy.bits .f32 = 32 ∨ (Rect.block (s := S4x4096x256) S1x1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024x256.size a ≤ S4x4096x256.size a
  hwx0_7 : ∀ i : grid0.Coords, EltTy.bits .bf16 = 32 ∨ (Rect.block (s := S4x4096x256) S1x1024x256.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1024x256.size a ≤ S4x4096x256.size a
  hwx0_8 : ∀ i : grid0.Coords, EltTy.bits .bf16 = 32 ∨ (Rect.block (s := S4x4096x256) S1x1024x256.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1024x256.size a ≤ S4x4096x256.size a
  hwx0_9 : ∀ i : grid0.Coords, EltTy.bits .bf16 = 32 ∨ (Rect.block (s := S4x4096x256) S1x1024x256.size (cc0_transform_9 i) (hinb0_9 i)).WholeWords (EltTy.packing .bf16)
  hrank1 : 0 < grid1.rank
  k1_mult1_dvd : ∀ i : grid1.Coords, 1024 ∣ (k1_mult1 i).toNat
  k1_off1_inb : ∀ i : grid1.Coords, ∀ a, (k1_off1 i) a + S1x1024x256.size a ≤ S1x4096x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x256.size a ≤ S4x4096x256.size a
  hwx1_0 : ∀ i : grid1.Coords, EltTy.bits .bf16 = 32 ∨ (Rect.block (s := S4x4096x256) S1x1024x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096x256.size a ≤ S4x4096x256.size a
  hwx1_1 : ∀ i : grid1.Coords, EltTy.bits .bf16 = 32 ∨ (Rect.block (s := S4x4096x256) S1x4096x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4096x256.size a ≤ S4x4096x256.size a
  hwx1_2 : ∀ i : grid1.Coords, EltTy.bits .bf16 = 32 ∨ (Rect.block (s := S4x4096x256) S1x4096x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S4x4096x4096.size a
  hwx1_3 : ∀ i : grid1.Coords, EltTy.bits .i32 = 32 ∨ (Rect.block (s := S4x4096x4096) S1x1024x1024.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x256.size a ≤ S4x4096x256.size a
  hwx1_4 : ∀ i : grid1.Coords, EltTy.bits .f32 = 32 ∨ (Rect.block (s := S4x4096x256) S1x1024x256.size (cc1_transform_4 i) (hinb1_4 i)).WholeWords (EltTy.packing .f32)

variable [Facts₀]

def dot_S1024x256_S256x256_S1024x256_1_1_0_0_n_n : DotDims S1024x256 S256x256 S1024x256 where
  lhsContracting := [1]
  rhsContracting := [1]
  lhsNonContracting := [0]
  rhsNonContracting := [0]
  lhsBatch := []
  rhsBatch := []
  wf := dot_S1024x256_S256x256_S1024x256_1_1_0_0_n_n_wf
def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_arg0) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_0) S1x1024x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_1) S1x1024x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_2) S1x1024x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v0_0) S1x1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S1x4096x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_2) S1x4096x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S1x1024x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x1024x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S4x4096x256 : Shape := ⟨3, ![4, 4096, 256]⟩
abbrev S4x4096x4096 : Shape := ⟨3, ![4, 4096, 4096]⟩
abbrev S256x256 : Shape := ⟨2, ![256, 256]⟩
abbrev S256 : Shape := ⟨1, ![256]⟩
abbrev S1x1x256 : Shape := ⟨3, ![1, 1, 256]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 46
  | .vmem => 0
  | .smem => 0
  | _ => 0

abbrev bufTy : (tb : Table) → Fin (tcTables nBuf tb) → BufTy
  | .hbm, ⟨0, _⟩ => ⟨S4x4096x256, .f32⟩
  | .hbm, ⟨1, _⟩ => ⟨S4x4096x4096, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S4x4096x256, .f32⟩
  | .hbm, ⟨9, _⟩ => ⟨S1x1x256, .f32⟩
  | .hbm, ⟨10, _⟩ => ⟨S4x4096x256, .f32⟩
  | .hbm, ⟨11, _⟩ => ⟨S4x4096x256, .f32⟩
  | .hbm, ⟨12, _⟩ => ⟨S4x4096x256, .f32⟩
  | .hbm, ⟨13, _⟩ => ⟨S1x1x256, .f32⟩
  | .hbm, ⟨14, _⟩ => ⟨S4x4096x256, .f32⟩
  | .hbm, ⟨15, _⟩ => ⟨S4x4096x256, .f32⟩
  | .hbm, ⟨16, _⟩ => ⟨S4x4096x256, .f32⟩
  | .hbm, ⟨17, _⟩ => ⟨S1x1x256, .f32⟩
  | .hbm, ⟨18, _⟩ => ⟨S4x4096x256, .f32⟩
  | .hbm, ⟨19, _⟩ => ⟨S4x4096x256, .f32⟩
  | .hbm, ⟨20, _⟩ => ⟨S4x4096x4096, .f32⟩
  | .hbm, ⟨21, _⟩ => ⟨S_, .i32⟩
  | .hbm, ⟨22, _⟩ => ⟨S4x4096x4096, .i32⟩
  | .hbm, ⟨23, _⟩ => ⟨S4x4096x4096, .i1⟩
  | .hbm, ⟨24, _⟩ => ⟨S_, .f32⟩
  | .hbm, ⟨25, _⟩ => ⟨S_, .f32⟩
  | .hbm, ⟨26, _⟩ => ⟨S4x4096x4096, .f32⟩
  | .hbm, ⟨27, _⟩ => ⟨S4x4096x4096, .f32⟩
  | .hbm, ⟨28, _⟩ => ⟨S_, .f32⟩
  | .hbm, ⟨29, _⟩ => ⟨S4x4096x4096, .f32⟩
  | .hbm, ⟨30, _⟩ => ⟨S4x4096x4096, .f32⟩
  | .hbm, ⟨31, _⟩ => ⟨S_, .f32⟩
  | .hbm, ⟨32, _⟩ => ⟨S4x4096, .f32⟩
  | .hbm, ⟨33, _⟩ => ⟨S_, .f32⟩
  | .hbm, ⟨34, _⟩ => ⟨S4x4096, .f32⟩
  | .hbm, ⟨35, _⟩ => ⟨S4x4096, .f32⟩
  | .hbm, ⟨36, _⟩ => ⟨S4x4096x1, .f32⟩
  | .hbm, ⟨37, _⟩ => ⟨S4x4096x4096, .f32⟩
  | .hbm, ⟨38, _⟩ => ⟨S4x4096x4096, .f32⟩
  | .hbm, ⟨39, _⟩ => ⟨S4x4096x4096, .f32⟩
  | .hbm, ⟨40, _⟩ => ⟨S_, .f32⟩
  | .hbm, ⟨41, _⟩ => ⟨S4x4096, .f32⟩
  | .hbm, ⟨42, _⟩ => ⟨S4x4096x1, .f32⟩
  | .hbm, ⟨43, _⟩ => ⟨S4x4096x4096, .f32⟩
  | .hbm, ⟨44, _⟩ => ⟨S4x4096x4096, .f32⟩
  | .hbm, ⟨45, _⟩ => ⟨S4x4096x256, .f32⟩
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S4x4096x256_0_1_2 : S1x1x256.BroadcastsInDim S4x4096x256 (![0, 1, 2] : Fin 3 → Fin S4x4096x256.rank)
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x256_S256x256_S4x4096x256_2_1_01_0_n_n_wf : DotDims.WF S4x4096x256 S256x256 S4x4096x256 [2] [1] [0, 1] [0] [] []
  dot_S4x4096x256_S4x4096x256_S4x4096x4096_2_2_1_1_0_0_wf : DotDims.WF S4x4096x256 S4x4096x256 S4x4096x4096 [2] [2] [1] [1] [0] [0]
  dot_S4x4096x4096_S4x4096x256_S4x4096x256_2_1_1_2_0_0_wf : DotDims.WF S4x4096x4096 S4x4096x256 S4x4096x256 [2] [1] [1] [2] [0] [0]

variable [Facts₀]

def dot_S4x4096x256_S256x256_S4x4096x256_2_1_01_0_n_n : DotDims S4x4096x256 S256x256 S4x4096x256 where
  lhsContracting := [2]
  rhsContracting := [1]
  lhsNonContracting := [0, 1]
  rhsNonContracting := [0]
  lhsBatch := []
  rhsBatch := []
  wf := dot_S4x4096x256_S256x256_S4x4096x256_2_1_01_0_n_n_wf
def dot_S4x4096x256_S4x4096x256_S4x4096x4096_2_2_1_1_0_0 : DotDims S4x4096x256 S4x4096x256 S4x4096x4096 where
  lhsContracting := [2]
  rhsContracting := [2]
  lhsNonContracting := [1]
  rhsNonContracting := [1]
  lhsBatch := [0]
  rhsBatch := [0]
  wf := dot_S4x4096x256_S4x4096x256_S4x4096x4096_2_2_1_1_0_0_wf
def dot_S4x4096x4096_S4x4096x256_S4x4096x256_2_1_1_2_0_0 : DotDims S4x4096x4096 S4x4096x256 S4x4096x256 where
  lhsContracting := [2]
  rhsContracting := [1]
  lhsNonContracting := [1]
  rhsNonContracting := [2]
  lhsBatch := [0]
  rhsBatch := [0]
  wf := dot_S4x4096x4096_S4x4096x256_S4x4096x256_2_1_1_2_0_0_wf

class Facts : Prop extends Facts₀ where

variable [Facts]
-- ==== Proof.ProjRegionBits.lean ====
import proofs.«410878_j7164005449951_3_alg».proof.Proof.Gen.Kernel.Launch
import proofs.«410878_j7164005449951_3_alg».proof.Proof.Gen.Kernel.Skeleton
import proofs.«410878_j7164005449951_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rX : Rect S1x1024x256 := Rect.unit (s := S1x1024x256) ![0, 0, 0] S1x1024x256.size inb_S1x1024x256_S1x1024x256_0_0_0
abbrev rW : Rect S256x256 := Rect.unit (s := S256x256) ![0, 0] S256x256.size inb_S256x256_S256x256_0_0
abbrev rB : Rect S256 := Rect.unit (s := S256) ![0] S256.size inb_S256_S256_0

def out0_7 (x0 : Vec F S1x1024x256 .f32) (w : Vec F S256x256 .f32) (b : Vec F S256 .f32) : Vec F S1x1024x256 .bf16 :=
  View.canon [⟨rX, k0_pay4 (View.ld x0 rX) (View.ld w rW) (View.ld b rB)⟩]
def out0_8 (x0 : Vec F S1x1024x256 .f32) (w : Vec F S256x256 .f32) (b : Vec F S256 .f32) : Vec F S1x1024x256 .bf16 :=
  View.canon [⟨rX, k0_pay5 (View.ld x0 rX) (View.ld w rW) (View.ld b rB)⟩]
def out0_9 (x0 : Vec F S1x1024x256 .f32) (w : Vec F S256x256 .f32) (b : Vec F S256 .f32) : Vec F S1x1024x256 .bf16 :=
  View.canon [⟨rX, k0_pay1 (k0_pay3 (View.ld x0 rX) (View.ld w rW) (View.ld b rB))⟩]

theorem cover0 (p0 : Vec F S1x1024x256 .bf16) (y : S1x1024x256.Idx) :
    ∃ pc ∈ ([⟨rX, p0⟩] : List (View.Piece (Elt F) S1x1024x256 .bf16)), y ∈ pc.1.set :=
  View.cover_of_tiled [⟨rX, p0⟩] S1x1024x256.size (by rfl) y

set_option maxHeartbeats 4000000 in
theorem sound_kernel0 (c : Dev nD) (E : Set ℕ) (i : grid0.Coords)
    (arg2 : Memref sig .tc .vmem S1x1024x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S256x256 .f32) (harg7 : arg7.IsWhole) (arg8 : Memref sig .tc .vmem S256 .f32) (harg8 : arg8.IsWhole) (arg9 : Memref sig .tc .vmem S1x1024x256 .bf16) (harg9 : arg9.IsWhole) (arg10 : Memref sig .tc .vmem S1x1024x256 .bf16) (harg10 : arg10.IsWhole) (arg11 : Memref sig .tc .vmem S1x1024x256 .bf16) (harg11 : arg11.IsWhole)
    (x0 : Vec F S1x1024x256 .f32) (x1 : Vec F S256x256 .f32) (x2 : Vec F S256 .f32) (x3 : Vec F S256x256 .f32) (x4 : Vec F S256 .f32) (x5 : Vec F S256x256 .f32) (x6 : Vec F S256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out0_7 x0 x1 x2) ∗ owns (c : Thread nD τ) arg10 fullShare (out0_8 x0 x3 x4) ∗ owns (c : Thread nD τ) arg11 fullShare (out0_9 x0 x5 x6)) -∗ K ⟨⟩))
      ⊢ wp frame (wpE (defs₀ (F := F)) Variants.none c none) E (cc0__proj_kernel i arg2 harg2 arg3 harg3 arg4 harg4 arg5 harg5 arg6 harg6 arg7 harg7 arg8 harg8 arg9 harg9 arg10 harg10 arg11 harg11) K := by
  simp only [cc0__proj_kernel_eq_skeleton]; unfold cc0__proj_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0 _)
  isplitl [H8]
  · iexists _; isplitr
    swap; · iexact H8
    ipureintro
    exact View.read_writes_eq_canon _ _ _ (cover0 _)
  iexists _; isplitr
  swap; · iexact H9
  ipureintro
  exact View.read_writes_eq_canon _ _ _ (cover0 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t)
    | ⟨8, _⟩ => out0_8 (iblk0 V c 0 t) (iblk0 V c 3 t) (iblk0 V c 4 t)
    | ⟨9, _⟩ => out0_9 (iblk0 V c 0 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := rfl

theorem after0_0 (c : Dev nD) (t : Fin cfg0.N) : (dat0 V c).after 0 t = iblk0 V c 0 t := rfl
theorem after0_1 (c : Dev nD) (t : Fin cfg0.N) : (dat0 V c).after 1 t = iblk0 V c 1 t := rfl
theorem after0_2 (c : Dev nD) (t : Fin cfg0.N) : (dat0 V c).after 2 t = iblk0 V c 2 t := rfl
theorem after0_3 (c : Dev nD) (t : Fin cfg0.N) : (dat0 V c).after 3 t = iblk0 V c 3 t := rfl
theorem after0_4 (c : Dev nD) (t : Fin cfg0.N) : (dat0 V c).after 4 t = iblk0 V c 4 t := rfl
theorem after0_5 (c : Dev nD) (t : Fin cfg0.N) : (dat0 V c).after 5 t = iblk0 V c 5 t := rfl
theorem after0_6 (c : Dev nD) (t : Fin cfg0.N) : (dat0 V c).after 6 t = iblk0 V c 6 t := rfl
theorem after0_7 (c : Dev nD) (t : Fin cfg0.N) : (dat0 V c).after 7 t = out0_7 (iblk0 V c 0 t) (iblk0 V c 1 t) (iblk0 V c 2 t) := by dsimp only [dat0]
theorem after0_8 (c : Dev nD) (t : Fin cfg0.N) : (dat0 V c).after 8 t = out0_8 (iblk0 V c 0 t) (iblk0 V c 3 t) (iblk0 V c 4 t) := by dsimp only [dat0]
theorem after0_9 (c : Dev nD) (t : Fin cfg0.N) : (dat0 V c).after 9 t = out0_9 (iblk0 V c 0 t) (iblk0 V c 5 t) (iblk0 V c 6 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl
theorem before0_4 (c : Dev nD) (t : Fin cfg0.N) (d) : (dat0 V c).before 4 t d = iblk0 V c 4 t :=
  ((dat0 V c).before_in_eq_fetched 4 rfl (fun _ => rfl) (fun _ _ _ => rfl) (fun _ => rfl) t d).trans rfl
theorem before0_5 (c : Dev nD) (t : Fin cfg0.N) (d) : (dat0 V c).before 5 t d = iblk0 V c 5 t :=
  ((dat0 V c).before_in_eq_fetched 5 rfl (fun _ => rfl) (fun _ _ _ => rfl) (fun _ => rfl) t d).trans rfl
theorem before0_6 (c : Dev nD) (t : Fin cfg0.N) (d) : (dat0 V c).before 6 t d = iblk0 V c 6 t :=
  ((dat0 V c).before_in_eq_fetched 6 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 1000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  iframe H0 H1 H2 H3 H4 H5 H6
  isplitl [H7]; · iexists _; iexact H7
  isplitl [H8]; · iexists _; iexact H8
  isplitl [H9]; · iexists _; iexact H9
  iintro Hpost
  iframe

theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.FlashRunsBits.lean ====
import proofs.«410878_j7164005449951_3_alg».proof.Proof.Gen.Kernel.Launch
import proofs.«410878_j7164005449951_3_alg».proof.Proof.Gen.Kernel.Skeleton
import proofs.«410878_j7164005449951_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem idleAt1_4_A : ∀ t : Fin cfg1.N, cond1_0 (grid1.coords t) → ¬cond1_1 (grid1.coords t) → cfg1.idle 4 (grid1.coords t) = true := by decide +kernel
theorem noFlush1_4_A : ∀ t : Fin cfg1.N, cond1_0 (grid1.coords t) → ¬cond1_1 (grid1.coords t) → (cfg1.win 4).flush t = false := by decide +kernel
theorem idleAt1_4_B : ∀ t : Fin cfg1.N, ¬cond1_0 (grid1.coords t) → ¬cond1_1 (grid1.coords t) → cfg1.idle 4 (grid1.coords t) = true := by decide +kernel
theorem noFlush1_4_B : ∀ t : Fin cfg1.N, ¬cond1_0 (grid1.coords t) → ¬cond1_1 (grid1.coords t) → (cfg1.win 4).flush t = false := by decide +kernel
theorem liveAt1_4_C : ∀ t : Fin cfg1.N, ¬cond1_0 (grid1.coords t) → cond1_1 (grid1.coords t) → cfg1.idle 4 (grid1.coords t) = false := by decide +kernel

abbrev VO1_4 : View sig .tc .vmem S1x1024x256 .f32 := (Memref.whole cc1_stg4_0 : Memref sig .tc .vmem S1x1024x256 .f32).view
abbrev ms1_0 (t : Fin cfg1.N) : Memref sig .tc .vmem S1x1024x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x4096x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x4096x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1024 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024x256 .f32 := win1_4.stage (cfg1.slots t 4)
abbrev hs1_4 (t : Fin cfg1.N) : (ms1_4 t).IsWhole := hstage1_4 ((cfg1.slots t 4).cast nbuf1_4)
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x256 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x256 .f32 := scM1_2.view

abbrev others1 (c : Dev nD) : sProp 𝕄 :=
  Pipeline.scopedRestBut (Ix := Unit) (Name := ℕ) (U := UR sig nD τ) (Lvl := ℕ) (Val := Elt F) spec1 c [cc1_scratch0, cc1_scratch1, cc1_scratch2]

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d)) ∗ others1 (F := F) c) ∗ (∃ r, prngReg c r)) := by
  unfold Pipeline.ΦA
  rw [Pipeline.scopedRest_split_of_list spec1 c [cc1_scratch0, cc1_scratch1, cc1_scratch2] (by decide) (by decide)]
  simp only [scM1_0, scM1_1, scM1_2, owns_whole]; try rfl

section Cases
variable (c : Dev nD) (i : grid1.Coords) (arg3 : Memref sig .tc .vmem S1x1024x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x1024x1024 .i32) (harg6 : arg6.IsWhole) (arg7 : Memref sig .tc .vmem S1x1024x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x256 .f32) (harg10 : arg10.IsWhole)

section A
variable (hc0 : cond1_0 i) (hc1 : ¬cond1_1 i) (x0 : Vec F S1x1024x256 .bf16) (x1 : Vec F S1x4096x256 .bf16) (x2 : Vec F S1x4096x256 .bf16) (x3 : Vec F S1x1024x1024 .i32)

set_option maxHeartbeats 4000000 in
/-- The body on a query block's first key block: the carried buffers, at anything, are reset and updated; each ends as a list of stored pieces. -/
noncomputable def kernelRun1_A :
    Σ' (L4 : List (View.Piece (Elt F) S1x1024x256 .f32)) (LS0 : List (View.Piece (Elt F) S1024x1 .f32)) (LS1 : List (View.Piece (Elt F) S1024x1 .f32)), { LS2 : List (View.Piece (Elt F) S1024x256 .f32) //
      ∀ (xi4 : Vec F S1x1024x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9 arg10 harg10) K } := by
  refine ⟨[], ?_, ?_, ?_, fun xi4 E K => ?run⟩
  case run =>
    simp only [cc1__flash_kernel_eq_skeleton]; unfold cc1__flash_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    iexists _; iexact HS2

end A

section B
variable (hc0 : ¬cond1_0 i) (hc1 : ¬cond1_1 i) (x0 : Vec F S1x1024x256 .bf16) (x1 : Vec F S1x4096x256 .bf16) (x2 : Vec F S1x4096x256 .bf16) (x3 : Vec F S1x1024x1024 .i32) (xs0 : Vec F S1024x1 .f32) (xs1 : Vec F S1024x1 .f32) (xs2 : Vec F S1024x256 .f32)

set_option maxHeartbeats 4000000 in
noncomputable def kernelRun1_B :
    Σ' (L4 : List (View.Piece (Elt F) S1x1024x256 .f32)) (LS0 : List (View.Piece (Elt F) S1024x1 .f32)) (LS1 : List (View.Piece (Elt F) S1024x1 .f32)), { LS2 : List (View.Piece (Elt F) S1024x256 .f32) //
      ∀ (xi4 : Vec F S1x1024x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0 ∗ owns (c : Thread nD τ) arg9 fullShare xs1 ∗ owns (c : Thread nD τ) arg10 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9 arg10 harg10) K } := by
  refine ⟨[], ?_, ?_, ?_, fun xi4 E K => ?run⟩
  case run =>
    simp only [cc1__flash_kernel_eq_skeleton]; unfold cc1__flash_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    iexists _; iexact HS2

end B

section C
variable (hc0 : ¬cond1_0 i) (hc1 : cond1_1 i) (x0 : Vec F S1x1024x256 .bf16) (x1 : Vec F S1x4096x256 .bf16) (x2 : Vec F S1x4096x256 .bf16) (x3 : Vec F S1x1024x1024 .i32) (xs0 : Vec F S1024x1 .f32) (xs1 : Vec F S1024x1 .f32) (xs2 : Vec F S1024x256 .f32)

set_option maxHeartbeats 4000000 in
noncomputable def kernelRun1_C :
    Σ' (L4 : List (View.Piece (Elt F) S1x1024x256 .f32)) (LS0 : List (View.Piece (Elt F) S1024x1 .f32)) (LS1 : List (View.Piece (Elt F) S1024x1 .f32)), { LS2 : List (View.Piece (Elt F) S1024x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0 ∗ owns (c : Thread nD τ) arg9 fullShare xs1 ∗ owns (c : Thread nD τ) arg10 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9 arg10 harg10) K } := by
  refine ⟨?_, ?_, ?_, ?_, fun E K => ?run⟩
  case run =>
    simp only [cc1__flash_kernel_eq_skeleton]; unfold cc1__flash_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    isplitl [HS1]; · iexists _; iexact HS1
    iexists _; iexact HS2

end C

end Cases

end Cert.Kernel.Hand

end
-- ==== Proof.FlashRegionBits.lean ====
import proofs.«410878_j7164005449951_3_alg».proof.Proof.FlashRunsBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev R4 := Vec F S1x1024x256 .f32 × Vec F S1024x1 .f32 × Vec F S1024x1 .f32 × Vec F S1024x256 .f32

section Cases
variable (c : Dev nD) (i : grid1.Coords) (arg3 : Memref sig .tc .vmem S1x1024x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x1024x1024 .i32) (harg6 : arg6.IsWhole) (arg7 : Memref sig .tc .vmem S1x1024x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x256 .f32) (harg10 : arg10.IsWhole) (x0 : Vec F S1x1024x256 .bf16) (x1 : Vec F S1x4096x256 .bf16) (x2 : Vec F S1x4096x256 .bf16) (x3 : Vec F S1x1024x1024 .i32)

section A
variable (hc0 : cond1_0 i) (hc1 : ¬cond1_1 i)

def sout1_A_0 : Vec F S1024x1 .f32 :=
  VS1_0.read (Elt F) (VS1_0.writes (Elt F) VS1_0.junk (kernelRun1_A c i arg3 harg3 arg4 harg4 arg5 harg5 arg6 harg6 arg7 harg7 arg8 harg8 arg9 harg9 arg10 harg10 hc0 hc1 x0 x1 x2 x3).2.1)

def sout1_A_1 : Vec F S1024x1 .f32 :=
  VS1_1.read (Elt F) (VS1_1.writes (Elt F) VS1_1.junk (kernelRun1_A c i arg3 harg3 arg4 harg4 arg5 harg5 arg6 harg6 arg7 harg7 arg8 harg8 arg9 harg9 arg10 harg10 hc0 hc1 x0 x1 x2 x3).2.2.1)

def sout1_A_2 : Vec F S1024x256 .f32 :=
  VS1_2.read (Elt F) (VS1_2.writes (Elt F) VS1_2.junk (kernelRun1_A c i arg3 harg3 arg4 harg4 arg5 harg5 arg6 harg6 arg7 harg7 arg8 harg8 arg9 harg9 arg10 harg10 hc0 hc1 x0 x1 x2 x3).2.2.2.1)

end A

section B
variable (hc0 : ¬cond1_0 i) (hc1 : ¬cond1_1 i) (xs0 : Vec F S1024x1 .f32) (xs1 : Vec F S1024x1 .f32) (xs2 : Vec F S1024x256 .f32)

def sout1_B_0 : Vec F S1024x1 .f32 :=
  VS1_0.read (Elt F) (VS1_0.writes (Elt F) VS1_0.junk (kernelRun1_B c i arg3 harg3 arg4 harg4 arg5 harg5 arg6 harg6 arg7 harg7 arg8 harg8 arg9 harg9 arg10 harg10 hc0 hc1 x0 x1 x2 x3 xs0 xs1 xs2).2.1)

def sout1_B_1 : Vec F S1024x1 .f32 :=
  VS1_1.read (Elt F) (VS1_1.writes (Elt F) VS1_1.junk (kernelRun1_B c i arg3 harg3 arg4 harg4 arg5 harg5 arg6 harg6 arg7 harg7 arg8 harg8 arg9 harg9 arg10 harg10 hc0 hc1 x0 x1 x2 x3 xs0 xs1 xs2).2.2.1)

def sout1_B_2 : Vec F S1024x256 .f32 :=
  VS1_2.read (Elt F) (VS1_2.writes (Elt F) VS1_2.junk (kernelRun1_B c i arg3 harg3 arg4 harg4 arg5 harg5 arg6 harg6 arg7 harg7 arg8 harg8 arg9 harg9 arg10 harg10 hc0 hc1 x0 x1 x2 x3 xs0 xs1 xs2).2.2.2.1)

end B

section C
variable (hc0 : ¬cond1_0 i) (hc1 : cond1_1 i) (xs0 : Vec F S1024x1 .f32) (xs1 : Vec F S1024x1 .f32) (xs2 : Vec F S1024x256 .f32)

def out1_C_4 : Vec F S1x1024x256 .f32 :=
  VO1_4.read (Elt F) (VO1_4.writes (Elt F) VO1_4.junk (kernelRun1_C c i arg3 harg3 arg4 harg4 arg5 harg5 arg6 harg6 arg7 harg7 arg8 harg8 arg9 harg9 arg10 harg10 hc0 hc1 x0 x1 x2 x3 xs0 xs1 xs2).1)

def sout1_C_0 : Vec F S1024x1 .f32 :=
  VS1_0.read (Elt F) (VS1_0.writes (Elt F) VS1_0.junk (kernelRun1_C c i arg3 harg3 arg4 harg4 arg5 harg5 arg6 harg6 arg7 harg7 arg8 harg8 arg9 harg9 arg10 harg10 hc0 hc1 x0 x1 x2 x3 xs0 xs1 xs2).2.1)

def sout1_C_1 : Vec F S1024x1 .f32 :=
  VS1_1.read (Elt F) (VS1_1.writes (Elt F) VS1_1.junk (kernelRun1_C c i arg3 harg3 arg4 harg4 arg5 harg5 arg6 harg6 arg7 harg7 arg8 harg8 arg9 harg9 arg10 harg10 hc0 hc1 x0 x1 x2 x3 xs0 xs1 xs2).2.2.1)

def sout1_C_2 : Vec F S1024x256 .f32 :=
  VS1_2.read (Elt F) (VS1_2.writes (Elt F) VS1_2.junk (kernelRun1_C c i arg3 harg3 arg4 harg4 arg5 harg5 arg6 harg6 arg7 harg7 arg8 harg8 arg9 harg9 arg10 harg10 hc0 hc1 x0 x1 x2 x3 xs0 xs1 xs2).2.2.2.1)

end C

end Cases

section Region1
variable (V : (c : Dev nD) → (b : Ref sig .tc) → Buf (Elt F) ((c : Thread nD τ).loc b)) (c : Dev nD)

def iblk1 (w : Fin cfg1.W) (t : Fin cfg1.N) : ((cfg1.win w).xblock (cfg1.grid.coords t)).Idx → Elt F (cfg1.win w).elt :=
  ((cfg1.win w).blk t).view.read (Elt F) (V c (Pipeline.arrRef spec1 w))

/-- `f` at point `t`'s buffers and input blocks. -/
def atP {γ : Type} (t : Fin cfg1.N) (f : (a3 : Memref sig .tc .vmem S1x1024x256 .bf16) → a3.IsWhole → (a4 : Memref sig .tc .vmem S1x4096x256 .bf16) → a4.IsWhole → (a5 : Memref sig .tc .vmem S1x4096x256 .bf16) → a5.IsWhole → (a6 : Memref sig .tc .vmem S1x1024x1024 .i32) → a6.IsWhole → (a7 : Memref sig .tc .vmem S1x1024x256 .f32) → a7.IsWhole → (a8 : Memref sig .tc .vmem S1024x1 .f32) → a8.IsWhole → (a9 : Memref sig .tc .vmem S1024x1 .f32) → a9.IsWhole → (a10 : Memref sig .tc .vmem S1024x256 .f32) → a10.IsWhole → Vec F S1x1024x256 .bf16 → Vec F S1x4096x256 .bf16 → Vec F S1x4096x256 .bf16 → Vec F S1x1024x1024 .i32 → γ) : γ :=
  f (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t)

/-- The four buffers after a query block's first key block: the output block untouched, the carried three from the reset values. -/
def atA (t : Fin cfg1.N) (h0 : t.val % 4 = 0) (h1 : ¬t.val % 4 = 3) : R4 (F := F) :=
  (VO1_4.read (Elt F) VO1_4.junk, atP V c t (sout1_A_0 c (grid1.coords t)) ((hcond1_0 t).mpr h0) (fun h => h1 ((hcond1_1 t).mp h)),
    atP V c t (sout1_A_1 c (grid1.coords t)) ((hcond1_0 t).mpr h0) (fun h => h1 ((hcond1_1 t).mp h)),
    atP V c t (sout1_A_2 c (grid1.coords t)) ((hcond1_0 t).mpr h0) (fun h => h1 ((hcond1_1 t).mp h)))

/-- After a middle key block, from the buffers `p` the point before left. -/
def atB (t : Fin cfg1.N) (h0 : ¬t.val % 4 = 0) (h1 : ¬t.val % 4 = 3) (p : R4 (F := F)) : R4 (F := F) :=
  (VO1_4.read (Elt F) VO1_4.junk, atP V c t (sout1_B_0 c (grid1.coords t)) (fun h => h0 ((hcond1_0 t).mp h)) (fun h => h1 ((hcond1_1 t).mp h)) p.2.1 p.2.2.1 p.2.2.2,
    atP V c t (sout1_B_1 c (grid1.coords t)) (fun h => h0 ((hcond1_0 t).mp h)) (fun h => h1 ((hcond1_1 t).mp h)) p.2.1 p.2.2.1 p.2.2.2,
    atP V c t (sout1_B_2 c (grid1.coords t)) (fun h => h0 ((hcond1_0 t).mp h)) (fun h => h1 ((hcond1_1 t).mp h)) p.2.1 p.2.2.1 p.2.2.2)

/-- After the last key block, where the output block is stored. -/
def atC (t : Fin cfg1.N) (h0 : ¬t.val % 4 = 0) (h1 : t.val % 4 = 3) (p : R4 (F := F)) : R4 (F := F) :=
  (atP V c t (out1_C_4 c (grid1.coords t)) (fun h => h0 ((hcond1_0 t).mp h)) ((hcond1_1 t).mpr h1) p.2.1 p.2.2.1 p.2.2.2,
    atP V c t (sout1_C_0 c (grid1.coords t)) (fun h => h0 ((hcond1_0 t).mp h)) ((hcond1_1 t).mpr h1) p.2.1 p.2.2.1 p.2.2.2,
    atP V c t (sout1_C_1 c (grid1.coords t)) (fun h => h0 ((hcond1_0 t).mp h)) ((hcond1_1 t).mpr h1) p.2.1 p.2.2.1 p.2.2.2,
    atP V c t (sout1_C_2 c (grid1.coords t)) (fun h => h0 ((hcond1_0 t).mp h)) ((hcond1_1 t).mpr h1) p.2.1 p.2.2.1 p.2.2.2)

/-- The four buffers after the body at position `n`, by recursion on the position: the key block is `n % 4`. -/
def outsAt1 : (n : ℕ) → n < cfg1.N → R4 (F := F)
  | 0, hn => atA V c ⟨0, hn⟩ (Nat.zero_mod 4) (by decide : ¬0 % 4 = 3)
  | n + 1, hn =>
    if h0 : (n + 1) % 4 = 0 then atA V c ⟨n + 1, hn⟩ h0 (by omega : ¬(n + 1) % 4 = 3)
    else if h1 : (n + 1) % 4 = 3 then atC V c ⟨n + 1, hn⟩ h0 h1 (outsAt1 n (Nat.lt_of_succ_lt hn))
    else atB V c ⟨n + 1, hn⟩ h0 h1 (outsAt1 n (Nat.lt_of_succ_lt hn))

theorem outsAt1_A (t : Fin cfg1.N) (h0 : t.val % 4 = 0) (h1 : ¬t.val % 4 = 3) :
    outsAt1 V c t.val t.isLt = atA V c t h0 h1 := by
  obtain ⟨n, hn⟩ := t
  cases n with
  | zero => rfl
  | succ n => exact (dif_pos h0).trans rfl

theorem outsAt1_B (t : Fin cfg1.N) (h0 : ¬t.val % 4 = 0) (h1 : ¬t.val % 4 = 3) :
    outsAt1 V c t.val t.isLt = atB V c t h0 h1 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem outsAt1_C (t : Fin cfg1.N) (h0 : ¬t.val % 4 = 0) (h1 : t.val % 4 = 3) :
    outsAt1 V c t.val t.isLt = atC V c t h0 h1 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- The region's invariant with the carried buffers at the contents `p`. -/
def inv1 (p : R4 (F := F)) : sProp 𝕄 :=
  iprop(iprop(iprop(owns (c : Thread nD τ) scM1_0 fullShare p.2.1 ∗ owns (c : Thread nD τ) scM1_1 fullShare p.2.2.1 ∗ owns (c : Thread nD τ) scM1_2 fullShare p.2.2.2) ∗ others1 (F := F) c) ∗ (∃ r, prngReg c r))

/-- The region's invariant before position `n`: the carried buffers at what position `n - 1` left. -/
def PhiS : (n : ℕ) → n ≤ cfg1.N → sProp 𝕄
  | 0, _ => Pipeline.ΦA spec1 c
  | n + 1, hn => inv1 c (outsAt1 V c n hn)

theorem PhiS_pos (n : ℕ) (h : n ≤ cfg1.N) (hz : n ≠ 0) : PhiS V c n h = inv1 c (outsAt1 V c (n - 1) (by omega)) := by
  cases n with
  | zero => exact absurd rfl hz
  | succ n => rfl

/-- Forgetting the carried contents weakens the invariant to the one the region is entered and left with. -/
theorem PhiS_le (n : ℕ) (h : n ≤ cfg1.N) : PhiS V c n h ⊢ Pipeline.ΦA spec1 c := by
  cases n with
  | zero => exact Idealize.SL.BI.Entails.refl _
  | succ n =>
    rw [show PhiS V c (n + 1) h = inv1 c (outsAt1 V c n h) from rfl, PhiA1_eq]; unfold inv1
    iintro ⟨⟨⟨HS0, HS1, HS2⟩, Hoth⟩, Hg⟩
    iframe Hoth Hg
    isplitl [HS0]; · iexists _; iexact HS0
    isplitl [HS1]; · iexists _; iexact HS1
    iexists _; iexact HS2

def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q _ := fullShare
  owed _ := 0

theorem A_eq1 (w : Fin cfg1.W) : (dat1 V c).A w = V c (Pipeline.arrRef spec1 w) := rfl

theorem PhiS_castSucc (t : Fin cfg1.N) : (dat1 V c).Φ t.castSucc = PhiS V c t.val (Nat.le_of_lt t.isLt) := rfl

theorem after1_0 (t : Fin cfg1.N) : (dat1 V c).after 0 t = iblk1 V c 0 t := rfl
theorem after1_1 (t : Fin cfg1.N) : (dat1 V c).after 1 t = iblk1 V c 1 t := rfl
theorem after1_2 (t : Fin cfg1.N) : (dat1 V c).after 2 t = iblk1 V c 2 t := rfl
theorem after1_3 (t : Fin cfg1.N) : (dat1 V c).after 3 t = iblk1 V c 3 t := rfl
theorem after1_4 (t : Fin cfg1.N) : (dat1 V c).after 4 t = (outsAt1 V c t.val t.isLt).1 := rfl

theorem before1_0 (t : Fin cfg1.N) (d) : (dat1 V c).before 0 t d = iblk1 V c 0 t :=
  ((dat1 V c).before_in_eq_fetched 0 rfl (fun _ => rfl) (fun _ _ _ => rfl) (fun _ => rfl) t d).trans rfl
theorem before1_1 (t : Fin cfg1.N) (d) : (dat1 V c).before 1 t d = iblk1 V c 1 t :=
  ((dat1 V c).before_in_eq_fetched 1 rfl (fun _ => rfl) (fun _ _ _ => rfl) (fun _ => rfl) t d).trans rfl
theorem before1_2 (t : Fin cfg1.N) (d) : (dat1 V c).before 2 t d = iblk1 V c 2 t :=
  ((dat1 V c).before_in_eq_fetched 2 rfl (fun _ => rfl) (fun _ _ _ => rfl) (fun _ => rfl) t d).trans rfl
theorem before1_3 (t : Fin cfg1.N) (d) : (dat1 V c).before 3 t d = iblk1 V c 3 t :=
  ((dat1 V c).before_in_eq_fetched 3 rfl (fun _ => rfl) (fun _ _ _ => rfl) (fun _ => rfl) t d).trans rfl

def bodyPre1 (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
/-- The body at any point: the key block says which case runs, from the carried contents the point before left to this point's. -/
theorem sound_body1 (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl,
    show (dat1 V c).Φ t.succ = inv1 c (outsAt1 V c t.val t.isLt) from rfl, PhiS_castSucc V c t,
    show (dat1 V c).leavesExact 0 t = owns (c : Thread nD τ) (ms1_0 t) fullShare ((dat1 V c).after 0 t) from by
      unfold Dat.leavesExact; rw [liveAt1_0 t], after1_0,
    show (dat1 V c).leavesExact 1 t = owns (c : Thread nD τ) (ms1_1 t) fullShare ((dat1 V c).after 1 t) from by
      unfold Dat.leavesExact; rw [liveAt1_1 t], after1_1,
    show (dat1 V c).leavesExact 2 t = owns (c : Thread nD τ) (ms1_2 t) fullShare ((dat1 V c).after 2 t) from by
      unfold Dat.leavesExact; rw [liveAt1_2 t], after1_2,
    show (dat1 V c).leavesExact 3 t = owns (c : Thread nD τ) (ms1_3 t) fullShare ((dat1 V c).after 3 t) from by
      unfold Dat.leavesExact; rw [liveAt1_3 t], after1_3]
  unfold inv1
  by_cases h0 : t.val % 4 = 0
  · have h1 : ¬t.val % 4 = 3 := by omega
    rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h))), outsAt1_A V c t h0 h1]
    unfold atA atP sout1_A_0 sout1_A_1 sout1_A_2; (try dsimp only)
    refine (sep_mono_left (PhiS_le V c _ _)).trans ?_
    rw [PhiA1_eq]
    ·
        iintro ⟨⟨⟨⟨HS0, HS1, HS2⟩, Hoth⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2 _ Set.univ _)
        iframe H0 H1 H2 H3 H4 HS0 HS1 HS2
        iintro ⟨H0, H1, H2, H3, H4, ⟨%es0, HS0⟩, ⟨%es1, HS1⟩, ⟨%es2, HS2⟩⟩
        iframe Hoth Hg Ho H0 H1 H2 H3
        isplitl [HS0 HS1 HS2]
        · isplitl [HS0]; · ihave H' := (Ring.owns_of_writes_tiledL VS1_0 S1024x1.size) $$ HS0; iapply H'; ipureintro; sl_kernel_rfl
          isplitl [HS1]; · ihave H' := (Ring.owns_of_writes_tiledL VS1_1 S1024x1.size) $$ HS1; iapply H'; ipureintro; sl_kernel_rfl
          ihave H' := (Ring.owns_of_writes_tiledL VS1_2 S1024x256.size) $$ HS2; iapply H'; ipureintro; sl_kernel_rfl
        iexists _; iexact H4
  · rw [PhiS_pos V c _ _ (by omega : t.val ≠ 0)]; unfold inv1
    by_cases h1 : t.val % 4 = 3
    · rw [show (dat1 V c).leavesExact 4 t = owns (c : Thread nD τ) (ms1_4 t) fullShare ((dat1 V c).after 4 t) from by
          unfold Dat.leavesExact; rw [liveAt1_4_C t (fun h => h0 ((hcond1_0 t).mp h)) ((hcond1_1 t).mpr h1)], after1_4, outsAt1_C V c t h0 h1]
      unfold atC atP out1_C_4 sout1_C_0 sout1_C_1 sout1_C_2; (try dsimp only)
      ·
        iintro ⟨⟨⟨⟨HS0, HS1, HS2⟩, Hoth⟩, Hg⟩, Ho, ⟨%d0, H0⟩, ⟨%d1, H1⟩, ⟨%d2, H2⟩, ⟨%d3, H3⟩, ⟨%d4, H4⟩⟩
        iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _ _).2.2.2.2 Set.univ _)
        iframe H0 H1 H2 H3 HS0 HS1 HS2
        isplitl [H4]; · iexists _; iexact H4
        iintro ⟨H0, H1, H2, H3, ⟨%e4, H4⟩, ⟨%es0, HS0⟩, ⟨%es1, HS1⟩, ⟨%es2, HS2⟩⟩
        iframe Hoth Hg Ho H0 H1 H2 H3
        isplitl [HS0 HS1 HS2]
        · isplitl [HS0]; · ihave H' := (Ring.owns_of_writes_tiledL VS1_0 S1024x1.size) $$ HS0; iapply H'; ipureintro; sl_kernel_rfl
          isplitl [HS1]; · ihave H' := (Ring.owns_of_writes_tiledL VS1_1 S1024x1.size) $$ HS1; iapply H'; ipureintro; sl_kernel_rfl
          ihave H' := (Ring.owns_of_writes_tiledL VS1_2 S1024x256.size) $$ HS2; iapply H'; ipureintro; sl_kernel_rfl
        ihave H' := (Ring.owns_of_writes_tiledL VO1_4 S1x1024x256.size) $$ H4; iapply H'; ipureintro; sl_kernel_rfl
    · rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h))), outsAt1_B V c t h0 h1]
      unfold atB atP sout1_B_0 sout1_B_1 sout1_B_2; (try dsimp only)
      ·
        iintro ⟨⟨⟨⟨HS0, HS1, HS2⟩, Hoth⟩, Hg⟩, Ho, ⟨%d0, H0⟩, ⟨%d1, H1⟩, ⟨%d2, H2⟩, ⟨%d3, H3⟩, ⟨%d4, H4⟩⟩
        iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _ _).2.2.2.2 _ Set.univ _)
        iframe H0 H1 H2 H3 H4 HS0 HS1 HS2
        iintro ⟨H0, H1, H2, H3, H4, ⟨%es0, HS0⟩, ⟨%es1, HS1⟩, ⟨%es2, HS2⟩⟩
        iframe Hoth Hg Ho H0 H1 H2 H3
        isplitl [HS0 HS1 HS2]
        · isplitl [HS0]; · ihave H' := (Ring.owns_of_writes_tiledL VS1_0 S1024x1.size) $$ HS0; iapply H'; ipureintro; sl_kernel_rfl
          isplitl [HS1]; · ihave H' := (Ring.owns_of_writes_tiledL VS1_1 S1024x1.size) $$ HS1; iapply H'; ipureintro; sl_kernel_rfl
          ihave H' := (Ring.owns_of_writes_tiledL VS1_2 S1024x256.size) $$ HS2; iapply H'; ipureintro; sl_kernel_rfl
        iexists _; iexact H4

theorem body_obligation1 : BodyObligation (dat1 (F := F) V c) (defs₀ (F := F)) Variants.none () Set.univ := fun t => by
  rw [bigSep_W1, bigSep_W1]
  exact sound_body1 V c t

theorem hin1 : Pipeline.ΦA spec1 c ⊢ (dat1 V c).Φ 0 := Idealize.SL.BI.Entails.refl (Pipeline.ΦA spec1 c)

theorem hout1 : (dat1 V c).Φ (Fin.last cfg1.N) ⊢ Pipeline.ΦA spec1 c :=
  show PhiS V c (Fin.last cfg1.N).val (Nat.le_of_lt_succ (Fin.last cfg1.N).isLt) ⊢ _ from PhiS_le V c _ _

end Region1

end Cert.Kernel.Hand

end
-- ==== Proof.RunBits.lean ====
import proofs.«410878_j7164005449951_3_alg».proof.Proof.ProjRegionBits
import proofs.«410878_j7164005449951_3_alg».proof.Proof.FlashRegionBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => m (c, b)
abbrev E0 : (c : Dev nD) → (b : Ref sig .tc) → Buf (Elt F) ((c : Thread nD τ).loc b) := fun c b => W0 m c b
def W1 (c : Dev nD) : Valuation τ sig (Elt F) :=
  Pipeline.withArrays spec0 c (W0 m c) fun w => (dat0 (E0 m) c).arrAt w cfg0.N
theorem W1_arr (c : Dev nD) (w : Fin cfg0.W) :
    W1 m c (Proc.devRef .tc (Pipeline.arrRef spec0 w)) = (dat0 (E0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev E1 : (c : Dev nD) → (b : Ref sig .tc) → Buf (Elt F) ((c : Thread nD τ).loc b) := fun c b => W1 m c b
theorem hF0 (c : Dev nD) (w : Fin cfg0.W) : (dat0 (E0 m) c).arrAt w cfg0.N = E1 m c (Pipeline.arrRef spec0 w) :=
  (W1_arr m c w).symm
theorem hrest0 (c : Dev nD) : ∀ b, b ∉ Finset.univ.image (Pipeline.arrRef spec0) → E1 m c b = E0 m c b :=
  fun b hb => W1_of_ne m c b fun w e => hb (Finset.mem_image.mpr ⟨w, Finset.mem_univ _, e⟩)

def W2 (c : Dev nD) : Valuation τ sig (Elt F) :=
  Pipeline.withArrays spec1 c (W1 m c) fun w => (dat1 (E1 m) c).arrAt w cfg1.N
theorem W2_arr (c : Dev nD) (w : Fin cfg1.W) :
    W2 m c (Proc.devRef .tc (Pipeline.arrRef spec1 w)) = (dat1 (E1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev E2 : (c : Dev nD) → (b : Ref sig .tc) → Buf (Elt F) ((c : Thread nD τ).loc b) := fun c b => W2 m c b
theorem hF1 (c : Dev nD) (w : Fin cfg1.W) : (dat1 (E1 m) c).arrAt w cfg1.N = E2 m c (Pipeline.arrRef spec1 w) :=
  (W2_arr m c w).symm
theorem hrest1 (c : Dev nD) : ∀ b, b ∉ Finset.univ.image (Pipeline.arrRef spec1) → E2 m c b = E1 m c b :=
  fun b hb => W2_of_ne m c b fun w e => hb (Finset.mem_image.mpr ⟨w, Finset.mem_univ _, e⟩)

/-- An input of the projection region that is no window of the attention region keeps its launch contents. -/
theorem W2_in0 (c : Dev nD) (w : Fin cfg0.W) (hin : (cfg0.win w).isOut = false)
    (hne : ∀ w', Pipeline.arrRef spec1 w' ≠ Pipeline.arrRef spec0 w) :
    W2 m c (Proc.devRef .tc (Pipeline.arrRef spec0 w)) = m ((c : Thread nD τ).loc (Pipeline.arrRef spec0 w)) :=
  (W2_of_ne m c _ hne).trans ((W1_arr m c w).trans ((dat0 (E0 m) c).arrAt_in w hin _))
theorem W2_main_arg1 (c : Dev nD) : W2 m c (Proc.devRef .tc main_arg1) = m ((c : Thread nD τ).loc main_arg1) :=
  calc W2 m c (Proc.devRef .tc main_arg1)
    _ = W1 m c (Proc.devRef .tc main_arg1) := (W2_arr m c 3).trans (((dat1 (E1 m) c).arrAt_in 3 rfl _).trans (A_eq1 (E1 m) c 3))
    _ = W0 m c (Proc.devRef .tc main_arg1) := W1_of_ne m c main_arg1 (by decide)
    _ = m ((c : Thread nD τ).loc main_arg1) := rfl
theorem W2_main_v1 (c : Dev nD) : W2 m c (Proc.devRef .tc main_v1) = (dat1 (E1 m) c).arrAt 4 cfg1.N := W2_arr m c 4
theorem E1_main_v0_0 (c : Dev nD) : E1 m c main_v0_0 = (dat0 (E0 m) c).arrAt 7 cfg0.N := W1_arr m c 7
theorem E1_main_v0_1 (c : Dev nD) : E1 m c main_v0_1 = (dat0 (E0 m) c).arrAt 8 cfg0.N := W1_arr m c 8
theorem E1_main_v0_2 (c : Dev nD) : E1 m c main_v0_2 = (dat0 (E0 m) c).arrAt 9 cfg0.N := W1_arr m c 9
theorem E1_main_arg1 (c : Dev nD) : E1 m c main_arg1 = m ((c : Thread nD τ).loc main_arg1) := W1_of_ne m c main_arg1 (by decide)

abbrev admH : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) admH p) c
  | ⟨0, _⟩ => fun c => dat0 (E0 m) c
  | ⟨1, _⟩ => fun c => dat1 (E1 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m c) ∗ ∃ r, prngReg c r)

set_option backward.isDefEq.respectTransparency.types false in
def reg0 : Pipeline.RegionSeg (pcfgs (F := F)) admH (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) admH (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) admH (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) admH (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (E1 m) c).Φ 0 from rfl]
    have h := hin1 (E1 m) c
    iintro ⟨Hp, -, Hr⟩
    iapply h
    unfold Pipeline.ΦA
    isplitl [Hr]; · iexact Hr
    iexact Hp
  hout c := by
    rw [Pipeline.ownSems0_none, show (pdats m 1 c).Φ (Fin.last _) = (dat1 (E1 m) c).Φ (Fin.last cfg1.N) from rfl]
    have h := hout1 (E1 m) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m) ((pdats m 1 c).share_full fun _ => rfl)
      (E1 m c) (E2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) admH (pdats m) () defs₀ 𝒱₀ L lv) :=
  [ .region (reg0 m), .region (reg1 m) ]
theorem main_run (c : Dev nD) : main (F := F) c = Pipeline.Seg.run (segs m) := (main_chain c).trans (by chain_rfl)

set_option backward.isDefEq.respectTransparency.types false in
/-- The two regions run in turn from the launch contents; every array ends at what the second region leaves. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) admH (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h => h)

/-- The eight arguments hold in `mem` what they held at launch. -/
abbrev Kept (mem : (ℓ : Loc nD τ sig) → Buf (Elt F) ℓ) (c : Dev nD) : Prop :=
  mem ((c.tc : Thread nD τ).loc main_arg0) = m ((c.tc : Thread nD τ).loc main_arg0)
  ∧ mem ((c.tc : Thread nD τ).loc main_arg1) = m ((c.tc : Thread nD τ).loc main_arg1)
  ∧ mem ((c.tc : Thread nD τ).loc main_arg2) = m ((c.tc : Thread nD τ).loc main_arg2)
  ∧ mem ((c.tc : Thread nD τ).loc main_arg3) = m ((c.tc : Thread nD τ).loc main_arg3)
  ∧ mem ((c.tc : Thread nD τ).loc main_arg4) = m ((c.tc : Thread nD τ).loc main_arg4)
  ∧ mem ((c.tc : Thread nD τ).loc main_arg5) = m ((c.tc : Thread nD τ).loc main_arg5)
  ∧ mem ((c.tc : Thread nD τ).loc main_arg6) = m ((c.tc : Thread nD τ).loc main_arg6)
  ∧ mem ((c.tc : Thread nD τ).loc main_arg7) = m ((c.tc : Thread nD τ).loc main_arg7)

theorem run_result : θ_run defs (onTc (τ := τ) (main (F := F))) ⟨m, fun _ => 0, ρ⟩ (fun r => ∀ c : Dev nD,
      r.2.mem ((c.tc : Thread nD τ).loc main_v1) = (dat1 (E1 m) c).arrAt 4 cfg1.N
      ∧ Kept m r.2.mem c) :=
  (θ_run defs _ _).mono (fun r h c =>
    ⟨(h c _ (mem_uc main_v1 (by decide))).trans (W2_main_v1 m c),
     (h c _ (mem_uc main_arg0 (by decide))).trans (W2_in0 m c 0 rfl (by decide)),
     (h c _ (mem_uc main_arg1 (by decide))).trans (W2_main_arg1 m c),
     (h c _ (mem_uc main_arg2 (by decide))).trans (W2_in0 m c 1 rfl (by decide)),
     (h c _ (mem_uc main_arg3 (by decide))).trans (W2_in0 m c 2 rfl (by decide)),
     (h c _ (mem_uc main_arg4 (by decide))).trans (W2_in0 m c 3 rfl (by decide)),
     (h c _ (mem_uc main_arg5 (by decide))).trans (W2_in0 m c 4 rfl (by decide)),
     (h c _ (mem_uc main_arg6 (by decide))).trans (W2_in0 m c 5 rfl (by decide)),
     (h c _ (mem_uc main_arg7 (by decide))).trans (W2_in0 m c 6 rfl (by decide))⟩) (run_all m ρ)

theorem frame : θ_run defs (onTc (τ := τ) (main (F := F))) ⟨m, fun _ => 0, ρ⟩ (fun r => ∀ c : Dev nD,
      Kept m r.2.mem c) :=
  (θ_run defs _ _).mono (fun r h c => (h c).2) (run_result m ρ)

end Cert.Kernel.Hand

end
-- ==== Proof.ProjRegionIdeal.lean ====
import proofs.«410878_j7164005449951_3_alg».proof.Proof.Gen.KernelIdeal.Launch
import proofs.«410878_j7164005449951_3_alg».proof.Proof.Gen.KernelIdeal.Skeleton
import proofs.«410878_j7164005449951_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region0
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rX : Rect S1x1024x256 := Rect.unit (s := S1x1024x256) ![0, 0, 0] S1x1024x256.size inb_S1x1024x256_S1x1024x256_0_0_0
abbrev rW : Rect S256x256 := Rect.unit (s := S256x256) ![0, 0] S256x256.size inb_S256x256_S256x256_0_0
abbrev rB : Rect S256 := Rect.unit (s := S256) ![0] S256.size inb_S256_S256_0

def out0_7 (x0 : Vec F S1x1024x256 .f32) (w : Vec F S256x256 .f32) (b : Vec F S256 .f32) : Vec F S1x1024x256 .bf16 :=
  View.canon [⟨rX, k0_pay4 (View.ld x0 rX) (View.ld w rW) (View.ld b rB)⟩]
def out0_8 (x0 : Vec F S1x1024x256 .f32) (w : Vec F S256x256 .f32) (b : Vec F S256 .f32) : Vec F S1x1024x256 .bf16 :=
  View.canon [⟨rX, k0_pay5 (View.ld x0 rX) (View.ld w rW) (View.ld b rB)⟩]
def out0_9 (x0 : Vec F S1x1024x256 .f32) (w : Vec F S256x256 .f32) (b : Vec F S256 .f32) : Vec F S1x1024x256 .bf16 :=
  View.canon [⟨rX, k0_pay1 (k0_pay3 (View.ld x0 rX) (View.ld w rW) (View.ld b rB))⟩]

theorem cover0 (p0 : Vec F S1x1024x256 .bf16) (y : S1x1024x256.Idx) :
    ∃ pc ∈ ([⟨rX, p0⟩] : List (View.Piece (Elt F) S1x1024x256 .bf16)), y ∈ pc.1.set :=
  View.cover_of_tiled [⟨rX, p0⟩] S1x1024x256.size (by rfl) y

set_option maxHeartbeats 4000000 in
theorem sound_kernel0 (c : Dev nD) (E : Set ℕ) (i : grid0.Coords)
    (arg2 : Memref sig .tc .vmem S1x1024x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S256x256 .f32) (harg7 : arg7.IsWhole) (arg8 : Memref sig .tc .vmem S256 .f32) (harg8 : arg8.IsWhole) (arg9 : Memref sig .tc .vmem S1x1024x256 .bf16) (harg9 : arg9.IsWhole) (arg10 : Memref sig .tc .vmem S1x1024x256 .bf16) (harg10 : arg10.IsWhole) (arg11 : Memref sig .tc .vmem S1x1024x256 .bf16) (harg11 : arg11.IsWhole)
    (x0 : Vec F S1x1024x256 .f32) (x1 : Vec F S256x256 .f32) (x2 : Vec F S256 .f32) (x3 : Vec F S256x256 .f32) (x4 : Vec F S256 .f32) (x5 : Vec F S256x256 .f32) (x6 : Vec F S256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out0_7 x0 x1 x2) ∗ owns (c : Thread nD τ) arg10 fullShare (out0_8 x0 x3 x4) ∗ owns (c : Thread nD τ) arg11 fullShare (out0_9 x0 x5 x6)) -∗ K ⟨⟩))
      ⊢ wp frame (wpE (defs₀ (F := F)) Variants.none c none) E (cc0__proj_kernel i arg2 harg2 arg3 harg3 arg4 harg4 arg5 harg5 arg6 harg6 arg7 harg7 arg8 harg8 arg9 harg9 arg10 harg10 arg11 harg11) K := by
  simp only [cc0__proj_kernel_eq_skeleton]; unfold cc0__proj_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0 _)
  isplitl [H8]
  · iexists _; isplitr
    swap; · iexact H8
    ipureintro
    exact View.read_writes_eq_canon _ _ _ (cover0 _)
  iexists _; isplitr
  swap; · iexact H9
  ipureintro
  exact View.read_writes_eq_canon _ _ _ (cover0 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t)
    | ⟨8, _⟩ => out0_8 (iblk0 V c 0 t) (iblk0 V c 3 t) (iblk0 V c 4 t)
    | ⟨9, _⟩ => out0_9 (iblk0 V c 0 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := rfl

theorem after0_0 (c : Dev nD) (t : Fin cfg0.N) : (dat0 V c).after 0 t = iblk0 V c 0 t := rfl
theorem after0_1 (c : Dev nD) (t : Fin cfg0.N) : (dat0 V c).after 1 t = iblk0 V c 1 t := rfl
theorem after0_2 (c : Dev nD) (t : Fin cfg0.N) : (dat0 V c).after 2 t = iblk0 V c 2 t := rfl
theorem after0_3 (c : Dev nD) (t : Fin cfg0.N) : (dat0 V c).after 3 t = iblk0 V c 3 t := rfl
theorem after0_4 (c : Dev nD) (t : Fin cfg0.N) : (dat0 V c).after 4 t = iblk0 V c 4 t := rfl
theorem after0_5 (c : Dev nD) (t : Fin cfg0.N) : (dat0 V c).after 5 t = iblk0 V c 5 t := rfl
theorem after0_6 (c : Dev nD) (t : Fin cfg0.N) : (dat0 V c).after 6 t = iblk0 V c 6 t := rfl
theorem after0_7 (c : Dev nD) (t : Fin cfg0.N) : (dat0 V c).after 7 t = out0_7 (iblk0 V c 0 t) (iblk0 V c 1 t) (iblk0 V c 2 t) := by dsimp only [dat0]
theorem after0_8 (c : Dev nD) (t : Fin cfg0.N) : (dat0 V c).after 8 t = out0_8 (iblk0 V c 0 t) (iblk0 V c 3 t) (iblk0 V c 4 t) := by dsimp only [dat0]
theorem after0_9 (c : Dev nD) (t : Fin cfg0.N) : (dat0 V c).after 9 t = out0_9 (iblk0 V c 0 t) (iblk0 V c 5 t) (iblk0 V c 6 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl
theorem before0_4 (c : Dev nD) (t : Fin cfg0.N) (d) : (dat0 V c).before 4 t d = iblk0 V c 4 t :=
  ((dat0 V c).before_in_eq_fetched 4 rfl (fun _ => rfl) (fun _ _ _ => rfl) (fun _ => rfl) t d).trans rfl
theorem before0_5 (c : Dev nD) (t : Fin cfg0.N) (d) : (dat0 V c).before 5 t d = iblk0 V c 5 t :=
  ((dat0 V c).before_in_eq_fetched 5 rfl (fun _ => rfl) (fun _ _ _ => rfl) (fun _ => rfl) t d).trans rfl
theorem before0_6 (c : Dev nD) (t : Fin cfg0.N) (d) : (dat0 V c).before 6 t d = iblk0 V c 6 t :=
  ((dat0 V c).before_in_eq_fetched 6 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 1000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  iframe H0 H1 H2 H3 H4 H5 H6
  isplitl [H7]; · iexists _; iexact H7
  isplitl [H8]; · iexists _; iexact H8
  isplitl [H9]; · iexists _; iexact H9
  iintro Hpost
  iframe

theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.FlashRunsIdeal.lean ====
import proofs.«410878_j7164005449951_3_alg».proof.Proof.Gen.KernelIdeal.Launch
import proofs.«410878_j7164005449951_3_alg».proof.Proof.Gen.KernelIdeal.Skeleton
import proofs.«410878_j7164005449951_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem idleAt1_4_A : ∀ t : Fin cfg1.N, cond1_0 (grid1.coords t) → ¬cond1_1 (grid1.coords t) → cfg1.idle 4 (grid1.coords t) = true := by decide +kernel
theorem noFlush1_4_A : ∀ t : Fin cfg1.N, cond1_0 (grid1.coords t) → ¬cond1_1 (grid1.coords t) → (cfg1.win 4).flush t = false := by decide +kernel
theorem idleAt1_4_B : ∀ t : Fin cfg1.N, ¬cond1_0 (grid1.coords t) → ¬cond1_1 (grid1.coords t) → cfg1.idle 4 (grid1.coords t) = true := by decide +kernel
theorem noFlush1_4_B : ∀ t : Fin cfg1.N, ¬cond1_0 (grid1.coords t) → ¬cond1_1 (grid1.coords t) → (cfg1.win 4).flush t = false := by decide +kernel
theorem liveAt1_4_C : ∀ t : Fin cfg1.N, ¬cond1_0 (grid1.coords t) → cond1_1 (grid1.coords t) → cfg1.idle 4 (grid1.coords t) = false := by decide +kernel

abbrev VO1_4 : View sig .tc .vmem S1x1024x256 .f32 := (Memref.whole cc1_stg4_0 : Memref sig .tc .vmem S1x1024x256 .f32).view
abbrev ms1_0 (t : Fin cfg1.N) : Memref sig .tc .vmem S1x1024x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x4096x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x4096x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1024 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024x256 .f32 := win1_4.stage (cfg1.slots t 4)
abbrev hs1_4 (t : Fin cfg1.N) : (ms1_4 t).IsWhole := hstage1_4 ((cfg1.slots t 4).cast nbuf1_4)
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x256 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x256 .f32 := scM1_2.view

abbrev others1 (c : Dev nD) : sProp 𝕄 :=
  Pipeline.scopedRestBut (Ix := Unit) (Name := ℕ) (U := UR sig nD τ) (Lvl := ℕ) (Val := Elt F) spec1 c [cc1_scratch0, cc1_scratch1, cc1_scratch2]

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d)) ∗ others1 (F := F) c) ∗ (∃ r, prngReg c r)) := by
  unfold Pipeline.ΦA
  rw [Pipeline.scopedRest_split_of_list spec1 c [cc1_scratch0, cc1_scratch1, cc1_scratch2] (by decide) (by decide)]
  simp only [scM1_0, scM1_1, scM1_2, owns_whole]; try rfl

section Cases
variable (c : Dev nD) (i : grid1.Coords) (arg3 : Memref sig .tc .vmem S1x1024x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x1024x1024 .i32) (harg6 : arg6.IsWhole) (arg7 : Memref sig .tc .vmem S1x1024x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x256 .f32) (harg10 : arg10.IsWhole)

section A
variable (hc0 : cond1_0 i) (hc1 : ¬cond1_1 i) (x0 : Vec F S1x1024x256 .bf16) (x1 : Vec F S1x4096x256 .bf16) (x2 : Vec F S1x4096x256 .bf16) (x3 : Vec F S1x1024x1024 .i32)

set_option maxHeartbeats 4000000 in
/-- The body on a query block's first key block: the carried buffers, at anything, are reset and updated; each ends as a list of stored pieces. -/
noncomputable def kernelRun1_A :
    Σ' (L4 : List (View.Piece (Elt F) S1x1024x256 .f32)) (LS0 : List (View.Piece (Elt F) S1024x1 .f32)) (LS1 : List (View.Piece (Elt F) S1024x1 .f32)), { LS2 : List (View.Piece (Elt F) S1024x256 .f32) //
      ∀ (xi4 : Vec F S1x1024x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9 arg10 harg10) K } := by
  refine ⟨[], ?_, ?_, ?_, fun xi4 E K => ?run⟩
  case run =>
    simp only [cc1__flash_kernel_eq_skeleton]; unfold cc1__flash_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    iexists _; iexact HS2

end A

section B
variable (hc0 : ¬cond1_0 i) (hc1 : ¬cond1_1 i) (x0 : Vec F S1x1024x256 .bf16) (x1 : Vec F S1x4096x256 .bf16) (x2 : Vec F S1x4096x256 .bf16) (x3 : Vec F S1x1024x1024 .i32) (xs0 : Vec F S1024x1 .f32) (xs1 : Vec F S1024x1 .f32) (xs2 : Vec F S1024x256 .f32)

set_option maxHeartbeats 4000000 in
noncomputable def kernelRun1_B :
    Σ' (L4 : List (View.Piece (Elt F) S1x1024x256 .f32)) (LS0 : List (View.Piece (Elt F) S1024x1 .f32)) (LS1 : List (View.Piece (Elt F) S1024x1 .f32)), { LS2 : List (View.Piece (Elt F) S1024x256 .f32) //
      ∀ (xi4 : Vec F S1x1024x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0 ∗ owns (c : Thread nD τ) arg9 fullShare xs1 ∗ owns (c : Thread nD τ) arg10 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9 arg10 harg10) K } := by
  refine ⟨[], ?_, ?_, ?_, fun xi4 E K => ?run⟩
  case run =>
    simp only [cc1__flash_kernel_eq_skeleton]; unfold cc1__flash_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    iexists _; iexact HS2

end B

section C
variable (hc0 : ¬cond1_0 i) (hc1 : cond1_1 i) (x0 : Vec F S1x1024x256 .bf16) (x1 : Vec F S1x4096x256 .bf16) (x2 : Vec F S1x4096x256 .bf16) (x3 : Vec F S1x1024x1024 .i32) (xs0 : Vec F S1024x1 .f32) (xs1 : Vec F S1024x1 .f32) (xs2 : Vec F S1024x256 .f32)

set_option maxHeartbeats 4000000 in
noncomputable def kernelRun1_C :
    Σ' (L4 : List (View.Piece (Elt F) S1x1024x256 .f32)) (LS0 : List (View.Piece (Elt F) S1024x1 .f32)) (LS1 : List (View.Piece (Elt F) S1024x1 .f32)), { LS2 : List (View.Piece (Elt F) S1024x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0 ∗ owns (c : Thread nD τ) arg9 fullShare xs1 ∗ owns (c : Thread nD τ) arg10 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9 arg10 harg10) K } := by
  refine ⟨?_, ?_, ?_, ?_, fun E K => ?run⟩
  case run =>
    simp only [cc1__flash_kernel_eq_skeleton]; unfold cc1__flash_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    isplitl [HS1]; · iexists _; iexact HS1
    iexists _; iexact HS2

end C

end Cases

end Cert.KernelIdeal.Hand

end
-- ==== Proof.FlashRegionIdeal.lean ====
import proofs.«410878_j7164005449951_3_alg».proof.Proof.FlashRunsIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

abbrev R4 := Vec F S1x1024x256 .f32 × Vec F S1024x1 .f32 × Vec F S1024x1 .f32 × Vec F S1024x256 .f32

section Cases
variable (c : Dev nD) (i : grid1.Coords) (arg3 : Memref sig .tc .vmem S1x1024x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x1024x1024 .i32) (harg6 : arg6.IsWhole) (arg7 : Memref sig .tc .vmem S1x1024x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x256 .f32) (harg10 : arg10.IsWhole) (x0 : Vec F S1x1024x256 .bf16) (x1 : Vec F S1x4096x256 .bf16) (x2 : Vec F S1x4096x256 .bf16) (x3 : Vec F S1x1024x1024 .i32)

section A
variable (hc0 : cond1_0 i) (hc1 : ¬cond1_1 i)

def sout1_A_0 : Vec F S1024x1 .f32 :=
  VS1_0.read (Elt F) (VS1_0.writes (Elt F) VS1_0.junk (kernelRun1_A c i arg3 harg3 arg4 harg4 arg5 harg5 arg6 harg6 arg7 harg7 arg8 harg8 arg9 harg9 arg10 harg10 hc0 hc1 x0 x1 x2 x3).2.1)

def sout1_A_1 : Vec F S1024x1 .f32 :=
  VS1_1.read (Elt F) (VS1_1.writes (Elt F) VS1_1.junk (kernelRun1_A c i arg3 harg3 arg4 harg4 arg5 harg5 arg6 harg6 arg7 harg7 arg8 harg8 arg9 harg9 arg10 harg10 hc0 hc1 x0 x1 x2 x3).2.2.1)

def sout1_A_2 : Vec F S1024x256 .f32 :=
  VS1_2.read (Elt F) (VS1_2.writes (Elt F) VS1_2.junk (kernelRun1_A c i arg3 harg3 arg4 harg4 arg5 harg5 arg6 harg6 arg7 harg7 arg8 harg8 arg9 harg9 arg10 harg10 hc0 hc1 x0 x1 x2 x3).2.2.2.1)

end A

section B
variable (hc0 : ¬cond1_0 i) (hc1 : ¬cond1_1 i) (xs0 : Vec F S1024x1 .f32) (xs1 : Vec F S1024x1 .f32) (xs2 : Vec F S1024x256 .f32)

def sout1_B_0 : Vec F S1024x1 .f32 :=
  VS1_0.read (Elt F) (VS1_0.writes (Elt F) VS1_0.junk (kernelRun1_B c i arg3 harg3 arg4 harg4 arg5 harg5 arg6 harg6 arg7 harg7 arg8 harg8 arg9 harg9 arg10 harg10 hc0 hc1 x0 x1 x2 x3 xs0 xs1 xs2).2.1)

def sout1_B_1 : Vec F S1024x1 .f32 :=
  VS1_1.read (Elt F) (VS1_1.writes (Elt F) VS1_1.junk (kernelRun1_B c i arg3 harg3 arg4 harg4 arg5 harg5 arg6 harg6 arg7 harg7 arg8 harg8 arg9 harg9 arg10 harg10 hc0 hc1 x0 x1 x2 x3 xs0 xs1 xs2).2.2.1)

def sout1_B_2 : Vec F S1024x256 .f32 :=
  VS1_2.read (Elt F) (VS1_2.writes (Elt F) VS1_2.junk (kernelRun1_B c i arg3 harg3 arg4 harg4 arg5 harg5 arg6 harg6 arg7 harg7 arg8 harg8 arg9 harg9 arg10 harg10 hc0 hc1 x0 x1 x2 x3 xs0 xs1 xs2).2.2.2.1)

end B

section C
variable (hc0 : ¬cond1_0 i) (hc1 : cond1_1 i) (xs0 : Vec F S1024x1 .f32) (xs1 : Vec F S1024x1 .f32) (xs2 : Vec F S1024x256 .f32)

def out1_C_4 : Vec F S1x1024x256 .f32 :=
  VO1_4.read (Elt F) (VO1_4.writes (Elt F) VO1_4.junk (kernelRun1_C c i arg3 harg3 arg4 harg4 arg5 harg5 arg6 harg6 arg7 harg7 arg8 harg8 arg9 harg9 arg10 harg10 hc0 hc1 x0 x1 x2 x3 xs0 xs1 xs2).1)

def sout1_C_0 : Vec F S1024x1 .f32 :=
  VS1_0.read (Elt F) (VS1_0.writes (Elt F) VS1_0.junk (kernelRun1_C c i arg3 harg3 arg4 harg4 arg5 harg5 arg6 harg6 arg7 harg7 arg8 harg8 arg9 harg9 arg10 harg10 hc0 hc1 x0 x1 x2 x3 xs0 xs1 xs2).2.1)

def sout1_C_1 : Vec F S1024x1 .f32 :=
  VS1_1.read (Elt F) (VS1_1.writes (Elt F) VS1_1.junk (kernelRun1_C c i arg3 harg3 arg4 harg4 arg5 harg5 arg6 harg6 arg7 harg7 arg8 harg8 arg9 harg9 arg10 harg10 hc0 hc1 x0 x1 x2 x3 xs0 xs1 xs2).2.2.1)

def sout1_C_2 : Vec F S1024x256 .f32 :=
  VS1_2.read (Elt F) (VS1_2.writes (Elt F) VS1_2.junk (kernelRun1_C c i arg3 harg3 arg4 harg4 arg5 harg5 arg6 harg6 arg7 harg7 arg8 harg8 arg9 harg9 arg10 harg10 hc0 hc1 x0 x1 x2 x3 xs0 xs1 xs2).2.2.2.1)

end C

end Cases

section Region1
variable (V : (c : Dev nD) → (b : Ref sig .tc) → Buf (Elt F) ((c : Thread nD τ).loc b)) (c : Dev nD)

def iblk1 (w : Fin cfg1.W) (t : Fin cfg1.N) : ((cfg1.win w).xblock (cfg1.grid.coords t)).Idx → Elt F (cfg1.win w).elt :=
  ((cfg1.win w).blk t).view.read (Elt F) (V c (Pipeline.arrRef spec1 w))

/-- `f` at point `t`'s buffers and input blocks. -/
def atP {γ : Type} (t : Fin cfg1.N) (f : (a3 : Memref sig .tc .vmem S1x1024x256 .bf16) → a3.IsWhole → (a4 : Memref sig .tc .vmem S1x4096x256 .bf16) → a4.IsWhole → (a5 : Memref sig .tc .vmem S1x4096x256 .bf16) → a5.IsWhole → (a6 : Memref sig .tc .vmem S1x1024x1024 .i32) → a6.IsWhole → (a7 : Memref sig .tc .vmem S1x1024x256 .f32) → a7.IsWhole → (a8 : Memref sig .tc .vmem S1024x1 .f32) → a8.IsWhole → (a9 : Memref sig .tc .vmem S1024x1 .f32) → a9.IsWhole → (a10 : Memref sig .tc .vmem S1024x256 .f32) → a10.IsWhole → Vec F S1x1024x256 .bf16 → Vec F S1x4096x256 .bf16 → Vec F S1x4096x256 .bf16 → Vec F S1x1024x1024 .i32 → γ) : γ :=
  f (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (iblk1 V c 0 t) (iblk1 V c 1 t) (iblk1 V c 2 t) (iblk1 V c 3 t)

/-- The four buffers after a query block's first key block: the output block untouched, the carried three from the reset values. -/
def atA (t : Fin cfg1.N) (h0 : t.val % 4 = 0) (h1 : ¬t.val % 4 = 3) : R4 (F := F) :=
  (VO1_4.read (Elt F) VO1_4.junk, atP V c t (sout1_A_0 c (grid1.coords t)) ((hcond1_0 t).mpr h0) (fun h => h1 ((hcond1_1 t).mp h)),
    atP V c t (sout1_A_1 c (grid1.coords t)) ((hcond1_0 t).mpr h0) (fun h => h1 ((hcond1_1 t).mp h)),
    atP V c t (sout1_A_2 c (grid1.coords t)) ((hcond1_0 t).mpr h0) (fun h => h1 ((hcond1_1 t).mp h)))

/-- After a middle key block, from the buffers `p` the point before left. -/
def atB (t : Fin cfg1.N) (h0 : ¬t.val % 4 = 0) (h1 : ¬t.val % 4 = 3) (p : R4 (F := F)) : R4 (F := F) :=
  (VO1_4.read (Elt F) VO1_4.junk, atP V c t (sout1_B_0 c (grid1.coords t)) (fun h => h0 ((hcond1_0 t).mp h)) (fun h => h1 ((hcond1_1 t).mp h)) p.2.1 p.2.2.1 p.2.2.2,
    atP V c t (sout1_B_1 c (grid1.coords t)) (fun h => h0 ((hcond1_0 t).mp h)) (fun h => h1 ((hcond1_1 t).mp h)) p.2.1 p.2.2.1 p.2.2.2,
    atP V c t (sout1_B_2 c (grid1.coords t)) (fun h => h0 ((hcond1_0 t).mp h)) (fun h => h1 ((hcond1_1 t).mp h)) p.2.1 p.2.2.1 p.2.2.2)

/-- After the last key block, where the output block is stored. -/
def atC (t : Fin cfg1.N) (h0 : ¬t.val % 4 = 0) (h1 : t.val % 4 = 3) (p : R4 (F := F)) : R4 (F := F) :=
  (atP V c t (out1_C_4 c (grid1.coords t)) (fun h => h0 ((hcond1_0 t).mp h)) ((hcond1_1 t).mpr h1) p.2.1 p.2.2.1 p.2.2.2,
    atP V c t (sout1_C_0 c (grid1.coords t)) (fun h => h0 ((hcond1_0 t).mp h)) ((hcond1_1 t).mpr h1) p.2.1 p.2.2.1 p.2.2.2,
    atP V c t (sout1_C_1 c (grid1.coords t)) (fun h => h0 ((hcond1_0 t).mp h)) ((hcond1_1 t).mpr h1) p.2.1 p.2.2.1 p.2.2.2,
    atP V c t (sout1_C_2 c (grid1.coords t)) (fun h => h0 ((hcond1_0 t).mp h)) ((hcond1_1 t).mpr h1) p.2.1 p.2.2.1 p.2.2.2)

/-- The four buffers after the body at position `n`, by recursion on the position: the key block is `n % 4`. -/
def outsAt1 : (n : ℕ) → n < cfg1.N → R4 (F := F)
  | 0, hn => atA V c ⟨0, hn⟩ (Nat.zero_mod 4) (by decide : ¬0 % 4 = 3)
  | n + 1, hn =>
    if h0 : (n + 1) % 4 = 0 then atA V c ⟨n + 1, hn⟩ h0 (by omega : ¬(n + 1) % 4 = 3)
    else if h1 : (n + 1) % 4 = 3 then atC V c ⟨n + 1, hn⟩ h0 h1 (outsAt1 n (Nat.lt_of_succ_lt hn))
    else atB V c ⟨n + 1, hn⟩ h0 h1 (outsAt1 n (Nat.lt_of_succ_lt hn))

theorem outsAt1_A (t : Fin cfg1.N) (h0 : t.val % 4 = 0) (h1 : ¬t.val % 4 = 3) :
    outsAt1 V c t.val t.isLt = atA V c t h0 h1 := by
  obtain ⟨n, hn⟩ := t
  cases n with
  | zero => rfl
  | succ n => exact (dif_pos h0).trans rfl

theorem outsAt1_B (t : Fin cfg1.N) (h0 : ¬t.val % 4 = 0) (h1 : ¬t.val % 4 = 3) :
    outsAt1 V c t.val t.isLt = atB V c t h0 h1 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem outsAt1_C (t : Fin cfg1.N) (h0 : ¬t.val % 4 = 0) (h1 : t.val % 4 = 3) :
    outsAt1 V c t.val t.isLt = atC V c t h0 h1 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- The region's invariant with the carried buffers at the contents `p`. -/
def inv1 (p : R4 (F := F)) : sProp 𝕄 :=
  iprop(iprop(iprop(owns (c : Thread nD τ) scM1_0 fullShare p.2.1 ∗ owns (c : Thread nD τ) scM1_1 fullShare p.2.2.1 ∗ owns (c : Thread nD τ) scM1_2 fullShare p.2.2.2) ∗ others1 (F := F) c) ∗ (∃ r, prngReg c r))

/-- The region's invariant before position `n`: the carried buffers at what position `n - 1` left. -/
def PhiS : (n : ℕ) → n ≤ cfg1.N → sProp 𝕄
  | 0, _ => Pipeline.ΦA spec1 c
  | n + 1, hn => inv1 c (outsAt1 V c n hn)

theorem PhiS_pos (n : ℕ) (h : n ≤ cfg1.N) (hz : n ≠ 0) : PhiS V c n h = inv1 c (outsAt1 V c (n - 1) (by omega)) := by
  cases n with
  | zero => exact absurd rfl hz
  | succ n => rfl

/-- Forgetting the carried contents weakens the invariant to the one the region is entered and left with. -/
theorem PhiS_le (n : ℕ) (h : n ≤ cfg1.N) : PhiS V c n h ⊢ Pipeline.ΦA spec1 c := by
  cases n with
  | zero => exact Idealize.SL.BI.Entails.refl _
  | succ n =>
    rw [show PhiS V c (n + 1) h = inv1 c (outsAt1 V c n h) from rfl, PhiA1_eq]; unfold inv1
    iintro ⟨⟨⟨HS0, HS1, HS2⟩, Hoth⟩, Hg⟩
    iframe Hoth Hg
    isplitl [HS0]; · iexists _; iexact HS0
    isplitl [HS1]; · iexists _; iexact HS1
    iexists _; iexact HS2

def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q _ := fullShare
  owed _ := 0

theorem A_eq1 (w : Fin cfg1.W) : (dat1 V c).A w = V c (Pipeline.arrRef spec1 w) := rfl

theorem PhiS_castSucc (t : Fin cfg1.N) : (dat1 V c).Φ t.castSucc = PhiS V c t.val (Nat.le_of_lt t.isLt) := rfl

theorem after1_0 (t : Fin cfg1.N) : (dat1 V c).after 0 t = iblk1 V c 0 t := rfl
theorem after1_1 (t : Fin cfg1.N) : (dat1 V c).after 1 t = iblk1 V c 1 t := rfl
theorem after1_2 (t : Fin cfg1.N) : (dat1 V c).after 2 t = iblk1 V c 2 t := rfl
theorem after1_3 (t : Fin cfg1.N) : (dat1 V c).after 3 t = iblk1 V c 3 t := rfl
theorem after1_4 (t : Fin cfg1.N) : (dat1 V c).after 4 t = (outsAt1 V c t.val t.isLt).1 := rfl

theorem before1_0 (t : Fin cfg1.N) (d) : (dat1 V c).before 0 t d = iblk1 V c 0 t :=
  ((dat1 V c).before_in_eq_fetched 0 rfl (fun _ => rfl) (fun _ _ _ => rfl) (fun _ => rfl) t d).trans rfl
theorem before1_1 (t : Fin cfg1.N) (d) : (dat1 V c).before 1 t d = iblk1 V c 1 t :=
  ((dat1 V c).before_in_eq_fetched 1 rfl (fun _ => rfl) (fun _ _ _ => rfl) (fun _ => rfl) t d).trans rfl
theorem before1_2 (t : Fin cfg1.N) (d) : (dat1 V c).before 2 t d = iblk1 V c 2 t :=
  ((dat1 V c).before_in_eq_fetched 2 rfl (fun _ => rfl) (fun _ _ _ => rfl) (fun _ => rfl) t d).trans rfl
theorem before1_3 (t : Fin cfg1.N) (d) : (dat1 V c).before 3 t d = iblk1 V c 3 t :=
  ((dat1 V c).before_in_eq_fetched 3 rfl (fun _ => rfl) (fun _ _ _ => rfl) (fun _ => rfl) t d).trans rfl

def bodyPre1 (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
/-- The body at any point: the key block says which case runs, from the carried contents the point before left to this point's. -/
theorem sound_body1 (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl,
    show (dat1 V c).Φ t.succ = inv1 c (outsAt1 V c t.val t.isLt) from rfl, PhiS_castSucc V c t,
    show (dat1 V c).leavesExact 0 t = owns (c : Thread nD τ) (ms1_0 t) fullShare ((dat1 V c).after 0 t) from by
      unfold Dat.leavesExact; rw [liveAt1_0 t], after1_0,
    show (dat1 V c).leavesExact 1 t = owns (c : Thread nD τ) (ms1_1 t) fullShare ((dat1 V c).after 1 t) from by
      unfold Dat.leavesExact; rw [liveAt1_1 t], after1_1,
    show (dat1 V c).leavesExact 2 t = owns (c : Thread nD τ) (ms1_2 t) fullShare ((dat1 V c).after 2 t) from by
      unfold Dat.leavesExact; rw [liveAt1_2 t], after1_2,
    show (dat1 V c).leavesExact 3 t = owns (c : Thread nD τ) (ms1_3 t) fullShare ((dat1 V c).after 3 t) from by
      unfold Dat.leavesExact; rw [liveAt1_3 t], after1_3]
  unfold inv1
  by_cases h0 : t.val % 4 = 0
  · have h1 : ¬t.val % 4 = 3 := by omega
    rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h))), outsAt1_A V c t h0 h1]
    unfold atA atP sout1_A_0 sout1_A_1 sout1_A_2; (try dsimp only)
    refine (sep_mono_left (PhiS_le V c _ _)).trans ?_
    rw [PhiA1_eq]
    ·
        iintro ⟨⟨⟨⟨HS0, HS1, HS2⟩, Hoth⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2 _ Set.univ _)
        iframe H0 H1 H2 H3 H4 HS0 HS1 HS2
        iintro ⟨H0, H1, H2, H3, H4, ⟨%es0, HS0⟩, ⟨%es1, HS1⟩, ⟨%es2, HS2⟩⟩
        iframe Hoth Hg Ho H0 H1 H2 H3
        isplitl [HS0 HS1 HS2]
        · isplitl [HS0]; · ihave H' := (Ring.owns_of_writes_tiledL VS1_0 S1024x1.size) $$ HS0; iapply H'; ipureintro; sl_kernel_rfl
          isplitl [HS1]; · ihave H' := (Ring.owns_of_writes_tiledL VS1_1 S1024x1.size) $$ HS1; iapply H'; ipureintro; sl_kernel_rfl
          ihave H' := (Ring.owns_of_writes_tiledL VS1_2 S1024x256.size) $$ HS2; iapply H'; ipureintro; sl_kernel_rfl
        iexists _; iexact H4
  · rw [PhiS_pos V c _ _ (by omega : t.val ≠ 0)]; unfold inv1
    by_cases h1 : t.val % 4 = 3
    · rw [show (dat1 V c).leavesExact 4 t = owns (c : Thread nD τ) (ms1_4 t) fullShare ((dat1 V c).after 4 t) from by
          unfold Dat.leavesExact; rw [liveAt1_4_C t (fun h => h0 ((hcond1_0 t).mp h)) ((hcond1_1 t).mpr h1)], after1_4, outsAt1_C V c t h0 h1]
      unfold atC atP out1_C_4 sout1_C_0 sout1_C_1 sout1_C_2; (try dsimp only)
      ·
        iintro ⟨⟨⟨⟨HS0, HS1, HS2⟩, Hoth⟩, Hg⟩, Ho, ⟨%d0, H0⟩, ⟨%d1, H1⟩, ⟨%d2, H2⟩, ⟨%d3, H3⟩, ⟨%d4, H4⟩⟩
        iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _ _).2.2.2.2 Set.univ _)
        iframe H0 H1 H2 H3 HS0 HS1 HS2
        isplitl [H4]; · iexists _; iexact H4
        iintro ⟨H0, H1, H2, H3, ⟨%e4, H4⟩, ⟨%es0, HS0⟩, ⟨%es1, HS1⟩, ⟨%es2, HS2⟩⟩
        iframe Hoth Hg Ho H0 H1 H2 H3
        isplitl [HS0 HS1 HS2]
        · isplitl [HS0]; · ihave H' := (Ring.owns_of_writes_tiledL VS1_0 S1024x1.size) $$ HS0; iapply H'; ipureintro; sl_kernel_rfl
          isplitl [HS1]; · ihave H' := (Ring.owns_of_writes_tiledL VS1_1 S1024x1.size) $$ HS1; iapply H'; ipureintro; sl_kernel_rfl
          ihave H' := (Ring.owns_of_writes_tiledL VS1_2 S1024x256.size) $$ HS2; iapply H'; ipureintro; sl_kernel_rfl
        ihave H' := (Ring.owns_of_writes_tiledL VO1_4 S1x1024x256.size) $$ H4; iapply H'; ipureintro; sl_kernel_rfl
    · rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h))), outsAt1_B V c t h0 h1]
      unfold atB atP sout1_B_0 sout1_B_1 sout1_B_2; (try dsimp only)
      ·
        iintro ⟨⟨⟨⟨HS0, HS1, HS2⟩, Hoth⟩, Hg⟩, Ho, ⟨%d0, H0⟩, ⟨%d1, H1⟩, ⟨%d2, H2⟩, ⟨%d3, H3⟩, ⟨%d4, H4⟩⟩
        iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _ _).2.2.2.2 _ Set.univ _)
        iframe H0 H1 H2 H3 H4 HS0 HS1 HS2
        iintro ⟨H0, H1, H2, H3, H4, ⟨%es0, HS0⟩, ⟨%es1, HS1⟩, ⟨%es2, HS2⟩⟩
        iframe Hoth Hg Ho H0 H1 H2 H3
        isplitl [HS0 HS1 HS2]
        · isplitl [HS0]; · ihave H' := (Ring.owns_of_writes_tiledL VS1_0 S1024x1.size) $$ HS0; iapply H'; ipureintro; sl_kernel_rfl
          isplitl [HS1]; · ihave H' := (Ring.owns_of_writes_tiledL VS1_1 S1024x1.size) $$ HS1; iapply H'; ipureintro; sl_kernel_rfl
          ihave H' := (Ring.owns_of_writes_tiledL VS1_2 S1024x256.size) $$ HS2; iapply H'; ipureintro; sl_kernel_rfl
        iexists _; iexact H4

theorem body_obligation1 : BodyObligation (dat1 (F := F) V c) (defs₀ (F := F)) Variants.none () Set.univ := fun t => by
  rw [bigSep_W1, bigSep_W1]
  exact sound_body1 V c t

theorem hin1 : Pipeline.ΦA spec1 c ⊢ (dat1 V c).Φ 0 := Idealize.SL.BI.Entails.refl (Pipeline.ΦA spec1 c)

theorem hout1 : (dat1 V c).Φ (Fin.last cfg1.N) ⊢ Pipeline.ΦA spec1 c :=
  show PhiS V c (Fin.last cfg1.N).val (Nat.le_of_lt_succ (Fin.last cfg1.N).isLt) ⊢ _ from PhiS_le V c _ _

end Region1

end Cert.KernelIdeal.Hand

end
-- ==== Proof.RunIdeal.lean ====
import proofs.«410878_j7164005449951_3_alg».proof.Proof.ProjRegionIdeal
import proofs.«410878_j7164005449951_3_alg».proof.Proof.FlashRegionIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => m (c, b)
abbrev E0 : (c : Dev nD) → (b : Ref sig .tc) → Buf (Elt F) ((c : Thread nD τ).loc b) := fun c b => W0 m c b
def W1 (c : Dev nD) : Valuation τ sig (Elt F) :=
  Pipeline.withArrays spec0 c (W0 m c) fun w => (dat0 (E0 m) c).arrAt w cfg0.N
theorem W1_arr (c : Dev nD) (w : Fin cfg0.W) :
    W1 m c (Proc.devRef .tc (Pipeline.arrRef spec0 w)) = (dat0 (E0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev E1 : (c : Dev nD) → (b : Ref sig .tc) → Buf (Elt F) ((c : Thread nD τ).loc b) := fun c b => W1 m c b
theorem hF0 (c : Dev nD) (w : Fin cfg0.W) : (dat0 (E0 m) c).arrAt w cfg0.N = E1 m c (Pipeline.arrRef spec0 w) :=
  (W1_arr m c w).symm
theorem hrest0 (c : Dev nD) : ∀ b, b ∉ Finset.univ.image (Pipeline.arrRef spec0) → E1 m c b = E0 m c b :=
  fun b hb => W1_of_ne m c b fun w e => hb (Finset.mem_image.mpr ⟨w, Finset.mem_univ _, e⟩)

def W2 (c : Dev nD) : Valuation τ sig (Elt F) :=
  Pipeline.withArrays spec1 c (W1 m c) fun w => (dat1 (E1 m) c).arrAt w cfg1.N
theorem W2_arr (c : Dev nD) (w : Fin cfg1.W) :
    W2 m c (Proc.devRef .tc (Pipeline.arrRef spec1 w)) = (dat1 (E1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev E2 : (c : Dev nD) → (b : Ref sig .tc) → Buf (Elt F) ((c : Thread nD τ).loc b) := fun c b => W2 m c b
theorem hF1 (c : Dev nD) (w : Fin cfg1.W) : (dat1 (E1 m) c).arrAt w cfg1.N = E2 m c (Pipeline.arrRef spec1 w) :=
  (W2_arr m c w).symm
theorem hrest1 (c : Dev nD) : ∀ b, b ∉ Finset.univ.image (Pipeline.arrRef spec1) → E2 m c b = E1 m c b :=
  fun b hb => W2_of_ne m c b fun w e => hb (Finset.mem_image.mpr ⟨w, Finset.mem_univ _, e⟩)

/-- An input of the projection region that is no window of the attention region keeps its launch contents. -/
theorem W2_in0 (c : Dev nD) (w : Fin cfg0.W) (hin : (cfg0.win w).isOut = false)
    (hne : ∀ w', Pipeline.arrRef spec1 w' ≠ Pipeline.arrRef spec0 w) :
    W2 m c (Proc.devRef .tc (Pipeline.arrRef spec0 w)) = m ((c : Thread nD τ).loc (Pipeline.arrRef spec0 w)) :=
  (W2_of_ne m c _ hne).trans ((W1_arr m c w).trans ((dat0 (E0 m) c).arrAt_in w hin _))
theorem W2_main_arg1 (c : Dev nD) : W2 m c (Proc.devRef .tc main_arg1) = m ((c : Thread nD τ).loc main_arg1) :=
  calc W2 m c (Proc.devRef .tc main_arg1)
    _ = W1 m c (Proc.devRef .tc main_arg1) := (W2_arr m c 3).trans (((dat1 (E1 m) c).arrAt_in 3 rfl _).trans (A_eq1 (E1 m) c 3))
    _ = W0 m c (Proc.devRef .tc main_arg1) := W1_of_ne m c main_arg1 (by decide)
    _ = m ((c : Thread nD τ).loc main_arg1) := rfl
theorem W2_main_v1 (c : Dev nD) : W2 m c (Proc.devRef .tc main_v1) = (dat1 (E1 m) c).arrAt 4 cfg1.N := W2_arr m c 4
theorem E1_main_v0_0 (c : Dev nD) : E1 m c main_v0_0 = (dat0 (E0 m) c).arrAt 7 cfg0.N := W1_arr m c 7
theorem E1_main_v0_1 (c : Dev nD) : E1 m c main_v0_1 = (dat0 (E0 m) c).arrAt 8 cfg0.N := W1_arr m c 8
theorem E1_main_v0_2 (c : Dev nD) : E1 m c main_v0_2 = (dat0 (E0 m) c).arrAt 9 cfg0.N := W1_arr m c 9
theorem E1_main_arg1 (c : Dev nD) : E1 m c main_arg1 = m ((c : Thread nD τ).loc main_arg1) := W1_of_ne m c main_arg1 (by decide)

abbrev admH : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) admH p) c
  | ⟨0, _⟩ => fun c => dat0 (E0 m) c
  | ⟨1, _⟩ => fun c => dat1 (E1 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m c) ∗ ∃ r, prngReg c r)

set_option backward.isDefEq.respectTransparency.types false in
def reg0 : Pipeline.RegionSeg (pcfgs (F := F)) admH (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) admH (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) admH (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) admH (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (E1 m) c).Φ 0 from rfl]
    have h := hin1 (E1 m) c
    iintro ⟨Hp, -, Hr⟩
    iapply h
    unfold Pipeline.ΦA
    isplitl [Hr]; · iexact Hr
    iexact Hp
  hout c := by
    rw [Pipeline.ownSems0_none, show (pdats m 1 c).Φ (Fin.last _) = (dat1 (E1 m) c).Φ (Fin.last cfg1.N) from rfl]
    have h := hout1 (E1 m) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m) ((pdats m 1 c).share_full fun _ => rfl)
      (E1 m c) (E2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) admH (pdats m) () defs₀ 𝒱₀ L lv) :=
  [ .region (reg0 m), .region (reg1 m) ]
theorem main_run (c : Dev nD) : main (F := F) c = Pipeline.Seg.run (segs m) := (main_chain c).trans (by chain_rfl)

set_option backward.isDefEq.respectTransparency.types false in
/-- The two regions run in turn from the launch contents; every array ends at what the second region leaves. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) admH (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h => h)

/-- The eight arguments hold in `mem` what they held at launch. -/
abbrev Kept (mem : (ℓ : Loc nD τ sig) → Buf (Elt F) ℓ) (c : Dev nD) : Prop :=
  mem ((c.tc : Thread nD τ).loc main_arg0) = m ((c.tc : Thread nD τ).loc main_arg0)
  ∧ mem ((c.tc : Thread nD τ).loc main_arg1) = m ((c.tc : Thread nD τ).loc main_arg1)
  ∧ mem ((c.tc : Thread nD τ).loc main_arg2) = m ((c.tc : Thread nD τ).loc main_arg2)
  ∧ mem ((c.tc : Thread nD τ).loc main_arg3) = m ((c.tc : Thread nD τ).loc main_arg3)
  ∧ mem ((c.tc : Thread nD τ).loc main_arg4) = m ((c.tc : Thread nD τ).loc main_arg4)
  ∧ mem ((c.tc : Thread nD τ).loc main_arg5) = m ((c.tc : Thread nD τ).loc main_arg5)
  ∧ mem ((c.tc : Thread nD τ).loc main_arg6) = m ((c.tc : Thread nD τ).loc main_arg6)
  ∧ mem ((c.tc : Thread nD τ).loc main_arg7) = m ((c.tc : Thread nD τ).loc main_arg7)

theorem run_result : θ_run defs (onTc (τ := τ) (main (F := F))) ⟨m, fun _ => 0, ρ⟩ (fun r => ∀ c : Dev nD,
      r.2.mem ((c.tc : Thread nD τ).loc main_v1) = (dat1 (E1 m) c).arrAt 4 cfg1.N
      ∧ Kept m r.2.mem c) :=
  (θ_run defs _ _).mono (fun r h c =>
    ⟨(h c _ (mem_uc main_v1 (by decide))).trans (W2_main_v1 m c),
     (h c _ (mem_uc main_arg0 (by decide))).trans (W2_in0 m c 0 rfl (by decide)),
     (h c _ (mem_uc main_arg1 (by decide))).trans (W2_main_arg1 m c),
     (h c _ (mem_uc main_arg2 (by decide))).trans (W2_in0 m c 1 rfl (by decide)),
     (h c _ (mem_uc main_arg3 (by decide))).trans (W2_in0 m c 2 rfl (by decide)),
     (h c _ (mem_uc main_arg4 (by decide))).trans (W2_in0 m c 3 rfl (by decide)),
     (h c _ (mem_uc main_arg5 (by decide))).trans (W2_in0 m c 4 rfl (by decide)),
     (h c _ (mem_uc main_arg6 (by decide))).trans (W2_in0 m c 5 rfl (by decide)),
     (h c _ (mem_uc main_arg7 (by decide))).trans (W2_in0 m c 6 rfl (by decide))⟩) (run_all m ρ)

theorem frame : θ_run defs (onTc (τ := τ) (main (F := F))) ⟨m, fun _ => 0, ρ⟩ (fun r => ∀ c : Dev nD,
      Kept m r.2.mem c) :=
  (θ_run defs _ _).mono (fun r h c => (h c).2) (run_result m ρ)

end Cert.KernelIdeal.Hand

end
-- ==== Proof.ProjPayload.lean ====
import proofs.«410878_j7164005449951_3_alg».proof.Proof.Gen.KernelIdeal.Skeleton
import Idealize.ShloMosaic.Lib.ValueIdx
import Idealize.ShloMosaic.Lib.ValueLayout
import Idealize.ShloMosaic.PureOps.Ideal.Laws

noncomputable section

namespace Cert.KernelIdeal.ProjValue

open Idealize.ShloMosaic Idealize.ShloMosaic.ValueIdx Idealize.SL.Sem
open Cert.KernelIdeal Cert.KernelIdeal.Gen

theorem lhs_proj_0 (i : S1024x256.Idx) (q : dot_S1024x256_S256x256_S1024x256_1_1_0_0_n_n.contr.Idx) :
    (dot_S1024x256_S256x256_S1024x256_1_1_0_0_n_n.lhsIdx i q 0).val = (i 0).val := by
  unfold DotDims.lhsIdx
  rw [dif_neg (show ¬(0 : Fin S1024x256.rank) ∈ dot_S1024x256_S256x256_S1024x256_1_1_0_0_n_n.lhsBatch by decide), dif_pos (show (0 : Fin S1024x256.rank) ∈ dot_S1024x256_S256x256_S1024x256_1_1_0_0_n_n.lhsNonContracting by decide)]
  rfl
theorem lhs_proj_1 (i : S1024x256.Idx) (q : dot_S1024x256_S256x256_S1024x256_1_1_0_0_n_n.contr.Idx) :
    (dot_S1024x256_S256x256_S1024x256_1_1_0_0_n_n.lhsIdx i q 1).val = (q ⟨0, by decide⟩).val :=
  dot_S1024x256_S256x256_S1024x256_1_1_0_0_n_n.lhsIdx_val_of_single rfl i q
theorem rhs_proj_0 (i : S1024x256.Idx) (q : dot_S1024x256_S256x256_S1024x256_1_1_0_0_n_n.contr.Idx) :
    (dot_S1024x256_S256x256_S1024x256_1_1_0_0_n_n.rhsIdx i q 0).val = (i 1).val := by
  unfold DotDims.rhsIdx
  rw [dif_neg (show ¬(0 : Fin S256x256.rank) ∈ dot_S1024x256_S256x256_S1024x256_1_1_0_0_n_n.rhsBatch by decide), dif_pos (show (0 : Fin S256x256.rank) ∈ dot_S1024x256_S256x256_S1024x256_1_1_0_0_n_n.rhsNonContracting by decide)]
  rfl
theorem rhs_proj_1 (i : S1024x256.Idx) (q : dot_S1024x256_S256x256_S1024x256_1_1_0_0_n_n.contr.Idx) :
    (dot_S1024x256_S256x256_S1024x256_1_1_0_0_n_n.rhsIdx i q 1).val = (q ⟨0, by decide⟩).val :=
  dot_S1024x256_S256x256_S1024x256_1_1_0_0_n_n.rhsIdx_val_of_single rfl i q

theorem matmul_zero_apply (a : FVec Ideal S1024x256 .bf16) (b : FVec Ideal S256x256 .bf16) (r : Fin 1024) (e : Fin 256) :
    matmul dot_S1024x256_S256x256_S1024x256_1_1_0_0_n_n none a b (constant (F := Ideal) S1024x256 .f32 0x00000000#32) (ix2 r e)
      = ∑ d : Fin 256, a (ix2 r d) * b (ix2 e d) := by
  simp only [matmul]
  rw [Ideal.matmul_constant_zero_apply, ← Equiv.sum_comp (contrEquiv1 dot_S1024x256_S256x256_S1024x256_1_1_0_0_n_n 256 rfl rfl).symm]
  refine Finset.sum_congr rfl fun k _ => ?_
  have hk := contrEquiv1_symm_val dot_S1024x256_S256x256_S1024x256_1_1_0_0_n_n 256 rfl rfl k
  have el : dot_S1024x256_S256x256_S1024x256_1_1_0_0_n_n.lhsIdx (ix2 r e) ((contrEquiv1 dot_S1024x256_S256x256_S1024x256_1_1_0_0_n_n 256 rfl rfl).symm k) = ix2 r k := funext fun ax => Fin.ext (by
    match ax with
    | ⟨0, _⟩ => exact lhs_proj_0 _ _
    | ⟨1, _⟩ => exact (lhs_proj_1 _ _).trans hk)
  have er : dot_S1024x256_S256x256_S1024x256_1_1_0_0_n_n.rhsIdx (ix2 r e) ((contrEquiv1 dot_S1024x256_S256x256_S1024x256_1_1_0_0_n_n 256 rfl rfl).symm k) = ix2 e k := funext fun ax => Fin.ext (by
    match ax with
    | ⟨0, _⟩ => exact rhs_proj_0 _ _
    | ⟨1, _⟩ => exact (rhs_proj_1 _ _).trans hk)
  rw [el, er]

theorem bias_apply (bias : Vec Ideal S256 .f32) (r : Fin 1024) (e : Fin 256) :
    broadcastTo S1024x256 (shapeCast S1x256 bias shapeCasts_S256_S1x256) broadcasts_S1x256_S1024x256 (ix2 r e) = bias (ix1 e) := by
  rw [broadcastTo_1b_ab_apply, shapeCast_a_1a_apply]

theorem scale_eq : (Scalar.ofBits .f32 0x3D800000#32 : Ideal .f32) = (((1 / 16 : ℝ)) : EReal) := by
  show Ideal.ofBits .f32 0x3D800000#32 = _
  simp [Ideal.ofBits, Ideal.ieee, -EReal.coe_mul]; norm_num

theorem pay2_apply (x0 : Vec Ideal S1x1024x256 .f32) (r : Fin 1024) (d : Fin 256) :
    k0_pay2 (F := Ideal) x0 (ix2 r d) = x0 (ix3 0 r d) := by
  unfold k0_pay2
  rw [truncf_apply, shapeCast_1ab_ab_apply]

theorem pay3_apply (x0 : Vec Ideal S1x1024x256 .f32) (w : Vec Ideal S256x256 .f32) (bias : Vec Ideal S256 .f32)
    (r : Fin 1024) (e : Fin 256) :
    k0_pay3 (F := Ideal) x0 w bias (ix2 r e) = (∑ d : Fin 256, x0 (ix3 0 r d) * w (ix2 e d)) + bias (ix1 e) := by
  unfold k0_pay3
  rw [addf_apply, matmul_zero_apply, bias_apply]
  simp only [pay2_apply, truncf_apply]

theorem pay1_apply (x0 : Vec Ideal S1x1024x256 .f32) (w : Vec Ideal S256x256 .f32) (bias : Vec Ideal S256 .f32)
    (r : Fin 1024) (e : Fin 256) :
    k0_pay1 (F := Ideal) (k0_pay3 (F := Ideal) x0 w bias) (ix3 0 r e)
      = (∑ d : Fin 256, x0 (ix3 0 r d) * w (ix2 e d)) + bias (ix1 e) := by
  unfold k0_pay1
  rw [shapeCast_ab_1ab_apply, truncf_apply, pay3_apply]

theorem pay4_apply (x0 : Vec Ideal S1x1024x256 .f32) (w : Vec Ideal S256x256 .f32) (bias : Vec Ideal S256 .f32)
    (r : Fin 1024) (e : Fin 256) :
    k0_pay4 (F := Ideal) x0 w bias (ix3 0 r e)
      = ((∑ d : Fin 256, x0 (ix3 0 r d) * w (ix2 e d)) + bias (ix1 e)) * (((1 / 16 : ℝ)) : EReal) := by
  unfold k0_pay4
  rw [shapeCast_ab_1ab_apply, truncf_apply, mulf_apply, addf_apply, matmul_zero_apply, bias_apply, broadcast_apply, scale_eq]
  simp only [pay2_apply, truncf_apply]

theorem pay5_apply (x0 : Vec Ideal S1x1024x256 .f32) (w : Vec Ideal S256x256 .f32) (bias : Vec Ideal S256 .f32)
    (r : Fin 1024) (e : Fin 256) :
    k0_pay5 (F := Ideal) x0 w bias (ix3 0 r e) = (∑ d : Fin 256, x0 (ix3 0 r d) * w (ix2 e d)) + bias (ix1 e) := by
  unfold k0_pay5
  rw [shapeCast_ab_1ab_apply, truncf_apply, addf_apply, matmul_zero_apply, bias_apply]
  simp only [pay2_apply, truncf_apply]

end Cert.KernelIdeal.ProjValue

end
-- ==== Proof.AttnSpec.lean ====
import Idealize.ShloMosaic.PureOps.Ideal
import Idealize.ShloMosaic.Lib.ValueIdx
import Mathlib.Data.Finset.Fold
import Mathlib.Data.EReal.Operations
import Mathlib.Data.Fintype.BigOperators
import Mathlib.Algebra.BigOperators.Fin
import Mathlib.Algebra.Order.BigOperators.Group.Finset
import Mathlib.Analysis.Complex.Exponential

noncomputable section

namespace Cert.Attn

open Idealize.ShloMosaic Idealize.ShloMosaic.ValueIdx

abbrev SX : Shape := ⟨3, ![4, 4096, 256]⟩
abbrev SM : Shape := ⟨3, ![4, 4096, 4096]⟩
abbrev SW : Shape := ⟨2, ![256, 256]⟩
abbrev SB : Shape := ⟨1, ![256]⟩

def proj (x : SX.Idx → EReal) (W : SW.Idx → EReal) (bias : SB.Idx → EReal) (b : Fin 4) (n : Fin 4096) (e : Fin 256) : EReal :=
  (∑ d : Fin 256, x (ix3 b n d) * W (ix2 e d)) + bias (ix1 e)

def score (Q K : Fin 4 → Fin 4096 → Fin 256 → EReal) (mask : SM.Idx → BitVec 32) (b : Fin 4) (n k : Fin 4096) : EReal :=
  Ideal.div (if mask (ix3 b n k) = 0#32 then ⊥ else ∑ d : Fin 256, Q b n d * K b k d) ((16 : ℝ) : EReal)

def scoreScaled (Q K : Fin 4 → Fin 4096 → Fin 256 → EReal) (mask : SM.Idx → BitVec 32) (b : Fin 4) (n k : Fin 4096) : EReal :=
  if mask (ix3 b n k) = 0#32 then ⊥ else ∑ d : Fin 256, (Q b n d * (((1 / 16 : ℝ)) : EReal)) * K b k d

def rowMax {n : Nat} (s : Fin n → EReal) : EReal := (Finset.univ : Finset (Fin n)).fold max ⊥ s

def attnRow (s v : Fin 4096 → EReal) : EReal :=
  ∑ k : Fin 4096, Ideal.div (Ideal.exp (s k - rowMax s)) (∑ k' : Fin 4096, Ideal.exp (s k' - rowMax s)) * v k

def keyOf (j : Fin 4) (r : Fin 1024) : Fin 4096 := ⟨j.val * 1024 + r.val, by have := j.isLt; have := r.isLt; omega⟩

def mNext (m : EReal) (sb : Fin 1024 → EReal) : EReal := max m (rowMax sb)
def lNext (m l : EReal) (sb : Fin 1024 → EReal) : EReal :=
  Ideal.exp (m - mNext m sb) * l + ∑ r : Fin 1024, Ideal.exp (sb r - mNext m sb)
def accNext (m acc : EReal) (sb vb : Fin 1024 → EReal) : EReal :=
  Ideal.exp (m - mNext m sb) * acc + ∑ r : Fin 1024, Ideal.exp (sb r - mNext m sb) * vb r

/-- The running maximum, normaliser and weighted sum of a row of scores `s` and a column of values `v` after `j` blocks of 1024 keys. -/
def running (s v : Fin 4096 → EReal) : (j : Nat) → j ≤ 4 → EReal × EReal × EReal
  | 0, _ => (⊥, 0, 0)
  | j + 1, h =>
    let p := running s v j (Nat.le_of_succ_le h)
    let sb : Fin 1024 → EReal := fun r => s (keyOf ⟨j, h⟩ r)
    let vb : Fin 1024 → EReal := fun r => v (keyOf ⟨j, h⟩ r)
    (mNext p.1 sb, lNext p.1 p.2.1 sb, accNext p.1 p.2.2 sb vb)

theorem le_rowMax {n : Nat} (s : Fin n → EReal) (k : Fin n) : s k ≤ rowMax s :=
  (Finset.le_fold_max _).mpr (Or.inr ⟨k, Finset.mem_univ k, le_rfl⟩)

theorem rowMax_le {n : Nat} (s : Fin n → EReal) (c : EReal) (h : ∀ k, s k ≤ c) : rowMax s ≤ c :=
  (Finset.fold_max_le _).mpr ⟨bot_le, fun k _ => h k⟩

theorem rowMax_ne_top {n : Nat} (s : Fin n → EReal) (h : ∀ k, s k ≠ ⊤) : rowMax s ≠ ⊤ :=
  ne_of_lt ((Finset.fold_max_lt _).mpr ⟨bot_lt_top, fun k _ => lt_top_iff_ne_top.mpr (h k)⟩)

theorem rowMax_ne_bot {n : Nat} (s : Fin n → EReal) (h : ∃ k, s k ≠ ⊥) : rowMax s ≠ ⊥ := by
  obtain ⟨k, hk⟩ := h
  exact ne_of_gt (lt_of_lt_of_le (bot_lt_iff_ne_bot.mpr hk) (le_rowMax s k))

def wt (x m : EReal) : ℝ := (Ideal.exp (x - m)).toReal

theorem exp_sub_eq_coe {x m : EReal} (hxm : x ≤ m) (hm : m ≠ ⊤) : Ideal.exp (x - m) = ((wt x m : ℝ) : EReal) := by
  unfold wt
  induction x using EReal.rec with
  | bot => rw [EReal.bot_sub]; simp
  | top => exact absurd (top_le_iff.mp hxm) hm
  | coe a =>
    induction m using EReal.rec with
    | bot => exact absurd (le_bot_iff.mp hxm) (EReal.coe_ne_bot a)
    | top => exact absurd rfl hm
    | coe b => rw [← EReal.coe_sub, Ideal.exp_coe, EReal.toReal_coe]

theorem wt_nonneg (x m : EReal) : 0 ≤ wt x m := by
  unfold wt
  apply EReal.toReal_nonneg
  induction (x - m) using EReal.rec with
  | bot => simp
  | top => simp
  | coe a => rw [Ideal.exp_coe]; exact EReal.coe_nonneg.mpr (Real.exp_pos a).le

theorem wt_pos {x m : EReal} (hx : x ≠ ⊥) (hx' : x ≠ ⊤) (hm : m ≠ ⊥) (hm' : m ≠ ⊤) : 0 < wt x m := by
  unfold wt
  lift x to ℝ using ⟨hx', hx⟩
  lift m to ℝ using ⟨hm', hm⟩
  rw [← EReal.coe_sub, Ideal.exp_coe, EReal.toReal_coe]
  exact Real.exp_pos _

/-- Moving the reference point: exp (m − m') · exp (x − m) = exp (x − m'). -/
theorem wt_mul_wt {x m m' : EReal} (hxm : x ≤ m) (hmm : m ≤ m') (hm' : m' ≠ ⊤) :
    wt m m' * wt x m = wt x m' := by
  unfold wt
  induction x using EReal.rec with
  | bot => simp [EReal.bot_sub]
  | top => exact absurd (top_le_iff.mp (hxm.trans hmm)) hm'
  | coe a =>
    induction m using EReal.rec with
    | bot => exact absurd (le_bot_iff.mp hxm) (EReal.coe_ne_bot a)
    | top => exact absurd (top_le_iff.mp hmm) hm'
    | coe b =>
      induction m' using EReal.rec with
      | bot => exact absurd (le_bot_iff.mp hmm) (EReal.coe_ne_bot b)
      | top => exact absurd rfl hm'
      | coe c =>
        rw [← EReal.coe_sub, ← EReal.coe_sub, ← EReal.coe_sub, Ideal.exp_coe, Ideal.exp_coe, Ideal.exp_coe,
          EReal.toReal_coe, EReal.toReal_coe, EReal.toReal_coe, ← Real.exp_add]
        congr 1; ring

theorem coe_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

theorem exists_real {α : Type*} (f : α → EReal) (h : ∀ i, f i ≠ ⊤ ∧ f i ≠ ⊥) :
    ∃ g : α → ℝ, f = fun i => (g i : EReal) :=
  ⟨fun i => (f i).toReal, funext fun i => (EReal.coe_toReal (h i).1 (h i).2).symm⟩

theorem exists_real₃ {α β γ : Type*} (f : α → β → γ → EReal) (h : ∀ a b c, f a b c ≠ ⊤ ∧ f a b c ≠ ⊥) :
    ∃ g : α → β → γ → ℝ, f = fun a b c => (g a b c : EReal) :=
  ⟨fun a b c => (f a b c).toReal, funext fun a => funext fun b => funext fun c =>
    (EReal.coe_toReal (h a b c).1 (h a b c).2).symm⟩

theorem mNext_ne_top {m : EReal} {sb : Fin 1024 → EReal} (hm : m ≠ ⊤) (hsb : ∀ r, sb r ≠ ⊤) : mNext m sb ≠ ⊤ :=
  (max_lt (lt_top_iff_ne_top.mpr hm) (lt_top_iff_ne_top.mpr (rowMax_ne_top sb hsb))).ne

theorem lNext_coe {ι : Type*} (t : Finset ι) (x : ι → EReal) (sb : Fin 1024 → EReal) (m : EReal)
    (hx : ∀ i ∈ t, x i ≤ m) (hsb : ∀ r, sb r ≠ ⊤) (hm : m ≠ ⊤) :
    lNext m ((∑ i ∈ t, wt (x i) m : ℝ) : EReal) sb
      = ((∑ i ∈ t, wt (x i) (mNext m sb) + ∑ r, wt (sb r) (mNext m sb) : ℝ) : EReal) := by
  have hm' : mNext m sb ≠ ⊤ := mNext_ne_top hm hsb
  have hmm : m ≤ mNext m sb := le_max_left _ _
  have hbm : ∀ r, sb r ≤ mNext m sb := fun r => (le_rowMax sb r).trans (le_max_right _ _)
  unfold lNext
  rw [exp_sub_eq_coe hmm hm', ← EReal.coe_mul, Finset.mul_sum,
    Finset.sum_congr rfl (fun r _ => exp_sub_eq_coe (hbm r) hm'), ← coe_sum, ← EReal.coe_add,
    Finset.sum_congr rfl (fun i hi => wt_mul_wt (hx i hi) hmm hm')]

theorem accNext_coe {ι : Type*} (t : Finset ι) (x : ι → EReal) (y : ι → ℝ) (sb : Fin 1024 → EReal) (yb : Fin 1024 → ℝ)
    (m : EReal) (hx : ∀ i ∈ t, x i ≤ m) (hsb : ∀ r, sb r ≠ ⊤) (hm : m ≠ ⊤) :
    accNext m ((∑ i ∈ t, wt (x i) m * y i : ℝ) : EReal) sb (fun r => (yb r : EReal))
      = ((∑ i ∈ t, wt (x i) (mNext m sb) * y i + ∑ r, wt (sb r) (mNext m sb) * yb r : ℝ) : EReal) := by
  have hm' : mNext m sb ≠ ⊤ := mNext_ne_top hm hsb
  have hmm : m ≤ mNext m sb := le_max_left _ _
  have hbm : ∀ r, sb r ≤ mNext m sb := fun r => (le_rowMax sb r).trans (le_max_right _ _)
  have e1 : ∑ r, Ideal.exp (sb r - mNext m sb) * ((yb r : ℝ) : EReal)
      = ((∑ r, wt (sb r) (mNext m sb) * yb r : ℝ) : EReal) := by
    rw [coe_sum]
    exact Finset.sum_congr rfl (fun r _ => by rw [exp_sub_eq_coe (hbm r) hm', ← EReal.coe_mul])
  have e2 : wt m (mNext m sb) * ∑ i ∈ t, wt (x i) m * y i = ∑ i ∈ t, wt (x i) (mNext m sb) * y i := by
    rw [Finset.mul_sum]
    exact Finset.sum_congr rfl (fun i hi => by rw [← mul_assoc, wt_mul_wt (hx i hi) hmm hm'])
  unfold accNext
  beta_reduce
  rw [exp_sub_eq_coe hmm hm', ← EReal.coe_mul, e2, e1, ← EReal.coe_add]

def keyEquiv : Fin 4 × Fin 1024 ≃ Fin 4096 where
  toFun q := keyOf q.1 q.2
  invFun k := (⟨k.val / 1024, by have := k.isLt; omega⟩, ⟨k.val % 1024, by omega⟩)
  left_inv q := by
    obtain ⟨⟨i, hi⟩, ⟨r, hr⟩⟩ := q
    simp only [keyOf, Prod.mk.injEq, Fin.mk.injEq]
    constructor <;> omega
  right_inv k := by
    apply Fin.ext
    simp only [keyOf]
    omega

theorem sum_keys (f : Fin 4096 → ℝ) : ∑ q : Fin 4 × Fin 1024, f (keyOf q.1 q.2) = ∑ k, f k :=
  Fintype.sum_equiv keyEquiv _ _ (fun _ => rfl)

theorem sum_blocks_succ {j : Nat} (F : Fin (j + 1) → Fin 1024 → ℝ) :
    ∑ q : Fin (j + 1) × Fin 1024, F q.1 q.2
      = ∑ q : Fin j × Fin 1024, F (Fin.castSucc q.1) q.2 + ∑ r, F (Fin.last j) r := by
  rw [Fintype.sum_prod_type, Fintype.sum_prod_type, Fin.sum_univ_castSucc]

theorem running_succ (s v : Fin 4096 → EReal) (j : Nat) (h : j + 1 ≤ 4) :
    running s v (j + 1) h =
      (mNext (running s v j (Nat.le_of_succ_le h)).1 (fun r => s (keyOf ⟨j, h⟩ r)),
       lNext (running s v j (Nat.le_of_succ_le h)).1 (running s v j (Nat.le_of_succ_le h)).2.1
         (fun r => s (keyOf ⟨j, h⟩ r)),
       accNext (running s v j (Nat.le_of_succ_le h)).1 (running s v j (Nat.le_of_succ_le h)).2.2
         (fun r => s (keyOf ⟨j, h⟩ r)) (fun r => v (keyOf ⟨j, h⟩ r))) := rfl

/-- After `j` blocks the maximum bounds the scores seen, and the normaliser and weighted sum are the sums of exp (s − max) and exp (s − max) · v over the keys seen. -/
theorem running_inv (s : Fin 4096 → EReal) (y : Fin 4096 → ℝ) (hs : ∀ k, s k ≠ ⊤) :
    ∀ (j : Nat) (h : j ≤ 4),
      (running s (fun k => (y k : EReal)) j h).1 ≤ rowMax s ∧
      (∀ (i : Fin j) (r : Fin 1024), s (keyOf (Fin.castLE h i) r) ≤ (running s (fun k => (y k : EReal)) j h).1) ∧
      (running s (fun k => (y k : EReal)) j h).2.1
        = ((∑ q : Fin j × Fin 1024,
            wt (s (keyOf (Fin.castLE h q.1) q.2)) (running s (fun k => (y k : EReal)) j h).1 : ℝ) : EReal) ∧
      (running s (fun k => (y k : EReal)) j h).2.2
        = ((∑ q : Fin j × Fin 1024,
            wt (s (keyOf (Fin.castLE h q.1) q.2)) (running s (fun k => (y k : EReal)) j h).1
              * y (keyOf (Fin.castLE h q.1) q.2) : ℝ) : EReal) := by
  intro j
  induction j with
  | zero =>
    intro h
    refine ⟨bot_le, fun i => i.elim0, ?_, ?_⟩ <;> simp [running]
  | succ j ih =>
    intro h
    obtain ⟨h1, h2, h3, h4⟩ := ih (Nat.le_of_succ_le h)
    rw [running_succ]
    generalize running s (fun k => (y k : EReal)) j (Nat.le_of_succ_le h) = p at h1 h2 h3 h4 ⊢
    obtain ⟨m, l, acc⟩ := p
    dsimp only at h1 h2 h3 h4 ⊢
    subst h3 h4
    have hm : m ≠ ⊤ := ne_of_lt (lt_of_le_of_lt h1 (lt_top_iff_ne_top.mpr (rowMax_ne_top s hs)))
    have hsb : ∀ r, s (keyOf ⟨j, h⟩ r) ≠ ⊤ := fun r => hs _
    refine ⟨max_le h1 (rowMax_le _ _ (fun r => le_rowMax s _)), ?_, ?_, ?_⟩
    · intro i r
      refine Fin.lastCases ?_ (fun i => ?_) i
      · exact (le_rowMax (fun r => s (keyOf ⟨j, h⟩ r)) r).trans (le_max_right _ _)
      · exact (h2 i r).trans (le_max_left _ _)
    · exact (lNext_coe Finset.univ (fun q : Fin j × Fin 1024 => s (keyOf (Fin.castLE (Nat.le_of_succ_le h) q.1) q.2))
        (fun r => s (keyOf ⟨j, h⟩ r)) m (fun q _ => h2 q.1 q.2) hsb hm).trans
        (congrArg _ (sum_blocks_succ (fun i r => wt (s (keyOf (Fin.castLE h i) r))
          (mNext m (fun r => s (keyOf ⟨j, h⟩ r))))).symm)
    · exact (accNext_coe Finset.univ (fun q : Fin j × Fin 1024 => s (keyOf (Fin.castLE (Nat.le_of_succ_le h) q.1) q.2))
        (fun q => y (keyOf (Fin.castLE (Nat.le_of_succ_le h) q.1) q.2))
        (fun r => s (keyOf ⟨j, h⟩ r)) (fun r => y (keyOf ⟨j, h⟩ r)) m (fun q _ => h2 q.1 q.2) hsb hm).trans
        (congrArg _ (sum_blocks_succ (fun i r => wt (s (keyOf (Fin.castLE h i) r))
          (mNext m (fun r => s (keyOf ⟨j, h⟩ r))) * y (keyOf (Fin.castLE h i) r))).symm)

theorem score_coe (q kr : Fin 4 → Fin 4096 → Fin 256 → ℝ) (mask : SM.Idx → BitVec 32) (b : Fin 4) (n k : Fin 4096) :
    score (fun b n d => (q b n d : EReal)) (fun b n d => (kr b n d : EReal)) mask b n k
      = if mask (ix3 b n k) = 0#32 then ⊥ else (((∑ d : Fin 256, q b n d * kr b k d) * (1 / 16) : ℝ) : EReal) := by
  unfold score
  rw [Ideal.div_coe (by norm_num : (16 : ℝ) ≠ 0)]
  split_ifs with hm
  · exact EReal.bot_mul_coe_of_pos (by norm_num)
  · rw [EReal.coe_mul, coe_sum]
    simp only [EReal.coe_mul]
/-- After all four blocks the quotient weighted sum / normaliser is the softmax-weighted sum of the values, provided one score of the row is real. -/
theorem running_eq_attnRow (s v : Fin 4096 → EReal) (hs : ∀ k, s k ≠ ⊤) (hne : ∃ k, s k ≠ ⊥)
    (hv : ∀ k, v k ≠ ⊤ ∧ v k ≠ ⊥) :
    Ideal.div (running s v 4 le_rfl).2.2 (running s v 4 le_rfl).2.1 = attnRow s v := by
  obtain ⟨y, rfl⟩ := exists_real v hv
  obtain ⟨h1, h2, h3, h4⟩ := running_inv s y hs 4 le_rfl
  have hMt : rowMax s ≠ ⊤ := rowMax_ne_top s hs
  have hMb : rowMax s ≠ ⊥ := rowMax_ne_bot s hne
  have hM : (running s (fun k => (y k : EReal)) 4 le_rfl).1 = rowMax s :=
    le_antisymm h1 (rowMax_le s _ (fun k => by
      have h := h2 (keyEquiv.symm k).1 (keyEquiv.symm k).2
      rwa [show keyOf (Fin.castLE le_rfl (keyEquiv.symm k).1) (keyEquiv.symm k).2 = k from
        keyEquiv.apply_symm_apply k] at h))
  have e3 : ∑ q : Fin 4 × Fin 1024, wt (s (keyOf (Fin.castLE (le_refl 4) q.1) q.2)) (rowMax s)
      = ∑ k, wt (s k) (rowMax s) := sum_keys (fun k => wt (s k) (rowMax s))
  have e4 : ∑ q : Fin 4 × Fin 1024, wt (s (keyOf (Fin.castLE (le_refl 4) q.1) q.2)) (rowMax s)
        * y (keyOf (Fin.castLE (le_refl 4) q.1) q.2)
      = ∑ k, wt (s k) (rowMax s) * y k := sum_keys (fun k => wt (s k) (rowMax s) * y k)
  rw [h4, h3, hM, e3, e4]
  have hL : (∑ k, wt (s k) (rowMax s)) ≠ 0 := by
    obtain ⟨k0, hk0⟩ := hne
    exact ne_of_gt (lt_of_lt_of_le (wt_pos hk0 (hs k0) hMb hMt)
      (Finset.single_le_sum (fun k _ => wt_nonneg (s k) (rowMax s)) (Finset.mem_univ k0)))
  have hE : ∀ k, Ideal.exp (s k - rowMax s) = ((wt (s k) (rowMax s) : ℝ) : EReal) :=
    fun k => exp_sub_eq_coe (le_rowMax s k) hMt
  have eL : ∑ k, ((wt (s k) (rowMax s) : ℝ) : EReal) = ((∑ k, wt (s k) (rowMax s) : ℝ) : EReal) :=
    (coe_sum _ _).symm
  unfold attnRow
  simp only [hE, eL, Ideal.div_coe hL, ← EReal.coe_mul]
  rw [← coe_sum, Finset.sum_mul]
  exact congrArg _ (Finset.sum_congr rfl (fun k _ => by ring))

theorem proj_finite (x : SX.Idx → EReal) (W : SW.Idx → EReal) (bias : SB.Idx → EReal)
    (hx : ∀ i, x i ≠ ⊤ ∧ x i ≠ ⊥) (hW : ∀ i, W i ≠ ⊤ ∧ W i ≠ ⊥) (hb : ∀ i, bias i ≠ ⊤ ∧ bias i ≠ ⊥)
    (b : Fin 4) (n : Fin 4096) (e : Fin 256) : proj x W bias b n e ≠ ⊤ ∧ proj x W bias b n e ≠ ⊥ := by
  obtain ⟨xr, rfl⟩ := exists_real x hx
  obtain ⟨Wr, rfl⟩ := exists_real W hW
  obtain ⟨br, rfl⟩ := exists_real bias hb
  have h : proj (fun i => (xr i : EReal)) (fun i => (Wr i : EReal)) (fun i => (br i : EReal)) b n e
      = (((∑ d : Fin 256, xr (ix3 b n d) * Wr (ix2 e d)) + br (ix1 e) : ℝ) : EReal) := by
    unfold proj
    rw [EReal.coe_add, coe_sum]
    simp only [EReal.coe_mul]
  rw [h]
  exact ⟨EReal.coe_ne_top _, EReal.coe_ne_bot _⟩

/-- The factor 1/16 moves from the queries across the finite inner product; a masked score is ⊥ either way. -/
theorem scoreScaled_eq_score (Q K : Fin 4 → Fin 4096 → Fin 256 → EReal) (mask : SM.Idx → BitVec 32)
    (hQ : ∀ b n d, Q b n d ≠ ⊤ ∧ Q b n d ≠ ⊥) (hK : ∀ b n d, K b n d ≠ ⊤ ∧ K b n d ≠ ⊥) (b : Fin 4) (n k : Fin 4096) :
    scoreScaled Q K mask b n k = score Q K mask b n k := by
  obtain ⟨q, rfl⟩ := exists_real₃ Q hQ
  obtain ⟨kr, rfl⟩ := exists_real₃ K hK
  rw [score_coe]
  unfold scoreScaled
  beta_reduce
  split_ifs with hm
  · rfl
  · rw [Finset.sum_mul, coe_sum]
    refine Finset.sum_congr rfl (fun d _ => ?_)
    rw [← EReal.coe_mul, ← EReal.coe_mul]
    exact congrArg _ (by ring)

theorem score_ne_top (Q K : Fin 4 → Fin 4096 → Fin 256 → EReal) (mask : SM.Idx → BitVec 32)
    (hQ : ∀ b n d, Q b n d ≠ ⊤ ∧ Q b n d ≠ ⊥) (hK : ∀ b n d, K b n d ≠ ⊤ ∧ K b n d ≠ ⊥) (b : Fin 4) (n k : Fin 4096) :
    score Q K mask b n k ≠ ⊤ := by
  obtain ⟨q, rfl⟩ := exists_real₃ Q hQ
  obtain ⟨kr, rfl⟩ := exists_real₃ K hK
  rw [score_coe]
  split_ifs with hm
  · exact bot_ne_top
  · exact EReal.coe_ne_top _
theorem score_ne_bot (Q K : Fin 4 → Fin 4096 → Fin 256 → EReal) (mask : SM.Idx → BitVec 32)
    (hQ : ∀ b n d, Q b n d ≠ ⊤ ∧ Q b n d ≠ ⊥) (hK : ∀ b n d, K b n d ≠ ⊤ ∧ K b n d ≠ ⊥) (b : Fin 4) (n k : Fin 4096)
    (hm : mask (ix3 b n k) ≠ 0#32) : score Q K mask b n k ≠ ⊥ := by
  obtain ⟨q, rfl⟩ := exists_real₃ Q hQ
  obtain ⟨kr, rfl⟩ := exists_real₃ K hK
  rw [score_coe, if_neg hm]
  exact EReal.coe_ne_bot _

def G (x : SX.Idx → EReal) (mask : SM.Idx → BitVec 32) (Wq : SW.Idx → EReal) (bq : SB.Idx → EReal)
    (Wk : SW.Idx → EReal) (bk : SB.Idx → EReal) (Wv : SW.Idx → EReal) (bv : SB.Idx → EReal) : SX.Idx → EReal :=
  fun i => attnRow (fun k => score (proj x Wq bq) (proj x Wk bk) mask (i 0) (i 1) k) (fun k => proj x Wv bv (i 0) k (i 2))

end Cert.Attn

end
-- ==== Proof.ProjArrays.lean ====
import proofs.«410878_j7164005449951_3_alg».proof.Proof.ProjRegionIdeal
import proofs.«410878_j7164005449951_3_alg».proof.Proof.ProjPayload
import proofs.«410878_j7164005449951_3_alg».proof.Proof.AttnSpec
import Idealize.ShloMosaic.Lib.Pipeline.Value
import Idealize.ShloMosaic.Lib.ValueIdx

noncomputable section

namespace Cert.KernelIdeal.ProjArrays

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

abbrev GP (x : S4x4096x256.Idx → EReal) (W : S256x256.Idx → EReal) (B : S256.Idx → EReal) : S4x4096x256.Idx → EReal :=
  fun i => Cert.Attn.proj x W B (i 0) (i 1) (i 2)
abbrev GQ (x : S4x4096x256.Idx → EReal) (W : S256x256.Idx → EReal) (B : S256.Idx → EReal) : S4x4096x256.Idx → EReal :=
  fun i => Cert.Attn.proj x W B (i 0) (i 1) (i 2) * (((1 / 16 : ℝ)) : EReal)

theorem payQ_block (x : S4x4096x256.Idx → EReal) (W : S256x256.Idx → EReal) (B : S256.Idx → EReal)
    (x0 : Vec Ideal S1x1024x256 .f32) (w : Vec Ideal S256x256 .f32) (bias : Vec Ideal S256 .f32)
    (i : S4x4096x256.Idx) (j : S1x1024x256.Idx)
    (hx : ∀ d : Fin 256, x0 (ix3 (0 : Fin 1) (j 1 : Fin 1024) d) = x (ix3 (i 0 : Fin 4) (i 1 : Fin 4096) d))
    (hw : w = W) (hb : bias = B) (h2 : (j 2).val = (i 2).val) :
    k0_pay4 (F := Ideal) x0 w bias j = GQ x W B i := by
  obtain ⟨a, r, e, rfl⟩ : ∃ (a : Fin 1) (r : Fin 1024) (e : Fin 256), j = ix3 a r e := ⟨j 0, j 1, j 2, eq_ix3 j⟩
  obtain ⟨p, n, e', rfl⟩ : ∃ (p : Fin 4) (n : Fin 4096) (e' : Fin 256), i = ix3 p n e' := ⟨i 0, i 1, i 2, eq_ix3 i⟩
  obtain rfl : a = 0 := Subsingleton.elim _ _
  obtain rfl : e = e' := Fin.ext h2
  subst hw hb
  rw [ProjValue.pay4_apply]
  show _ = Cert.Attn.proj x w bias p n e * _
  unfold Cert.Attn.proj
  simp only [hx]

theorem payK_block (x : S4x4096x256.Idx → EReal) (W : S256x256.Idx → EReal) (B : S256.Idx → EReal)
    (x0 : Vec Ideal S1x1024x256 .f32) (w : Vec Ideal S256x256 .f32) (bias : Vec Ideal S256 .f32)
    (i : S4x4096x256.Idx) (j : S1x1024x256.Idx)
    (hx : ∀ d : Fin 256, x0 (ix3 (0 : Fin 1) (j 1 : Fin 1024) d) = x (ix3 (i 0 : Fin 4) (i 1 : Fin 4096) d))
    (hw : w = W) (hb : bias = B) (h2 : (j 2).val = (i 2).val) :
    k0_pay5 (F := Ideal) x0 w bias j = GP x W B i := by
  obtain ⟨a, r, e, rfl⟩ : ∃ (a : Fin 1) (r : Fin 1024) (e : Fin 256), j = ix3 a r e := ⟨j 0, j 1, j 2, eq_ix3 j⟩
  obtain ⟨p, n, e', rfl⟩ : ∃ (p : Fin 4) (n : Fin 4096) (e' : Fin 256), i = ix3 p n e' := ⟨i 0, i 1, i 2, eq_ix3 i⟩
  obtain rfl : a = 0 := Subsingleton.elim _ _
  obtain rfl : e = e' := Fin.ext h2
  subst hw hb
  rw [ProjValue.pay5_apply]
  show _ = Cert.Attn.proj x w bias p n e
  unfold Cert.Attn.proj
  simp only [hx]

theorem payV_block (x : S4x4096x256.Idx → EReal) (W : S256x256.Idx → EReal) (B : S256.Idx → EReal)
    (x0 : Vec Ideal S1x1024x256 .f32) (w : Vec Ideal S256x256 .f32) (bias : Vec Ideal S256 .f32)
    (i : S4x4096x256.Idx) (j : S1x1024x256.Idx)
    (hx : ∀ d : Fin 256, x0 (ix3 (0 : Fin 1) (j 1 : Fin 1024) d) = x (ix3 (i 0 : Fin 4) (i 1 : Fin 4096) d))
    (hw : w = W) (hb : bias = B) (h2 : (j 2).val = (i 2).val) :
    k0_pay1 (F := Ideal) (k0_pay3 (F := Ideal) x0 w bias) j = GP x W B i := by
  obtain ⟨a, r, e, rfl⟩ : ∃ (a : Fin 1) (r : Fin 1024) (e : Fin 256), j = ix3 a r e := ⟨j 0, j 1, j 2, eq_ix3 j⟩
  obtain ⟨p, n, e', rfl⟩ : ∃ (p : Fin 4) (n : Fin 4096) (e' : Fin 256), i = ix3 p n e' := ⟨i 0, i 1, i 2, eq_ix3 i⟩
  obtain rfl : a = 0 := Subsingleton.elim _ _
  obtain rfl : e = e' := Fin.ext h2
  subst hw hb
  rw [ProjValue.pay1_apply]
  show _ = Cert.Attn.proj x w bias p n e
  unfold Cert.Attn.proj
  simp only [hx]

theorem idx_facts : ∀ t : Fin cfg0.N,
    win0_0.index t (0 : Fin 3) = t.val / 4 ∧ win0_0.index t (1 : Fin 3) = t.val % 4 ∧ win0_0.index t (2 : Fin 3) = 0
    ∧ win0_7.index t (0 : Fin 3) = t.val / 4 ∧ win0_7.index t (1 : Fin 3) = t.val % 4 ∧ win0_7.index t (2 : Fin 3) = 0
    ∧ win0_8.index t (0 : Fin 3) = t.val / 4 ∧ win0_8.index t (1 : Fin 3) = t.val % 4 ∧ win0_8.index t (2 : Fin 3) = 0
    ∧ win0_9.index t (0 : Fin 3) = t.val / 4 ∧ win0_9.index t (1 : Fin 3) = t.val % 4 ∧ win0_9.index t (2 : Fin 3) = 0 :=
  (by decide +kernel : ∀ t : Fin grid0.N, _)

theorem idx_whole : ∀ t : Fin cfg0.N,
    win0_1.index t (0 : Fin 2) = 0 ∧ win0_1.index t (1 : Fin 2) = 0 ∧ win0_2.index t (0 : Fin 1) = 0
    ∧ win0_3.index t (0 : Fin 2) = 0 ∧ win0_3.index t (1 : Fin 2) = 0 ∧ win0_4.index t (0 : Fin 1) = 0
    ∧ win0_5.index t (0 : Fin 2) = 0 ∧ win0_5.index t (1 : Fin 2) = 0 ∧ win0_6.index t (0 : Fin 1) = 0 :=
  (by decide +kernel : ∀ t : Fin grid0.N, _)

section Arrays
variable (V : (c : Dev nD) → (b : Ref sig .tc) → Buf (Elt Ideal) ((c : Thread nD τ).loc b))

theorem iblk0_1_eq (c : Dev nD) (t : Fin cfg0.N) : iblk0 V c 1 t = V c main_arg2 := by
  obtain ⟨w10, w11, w20, w30, w31, w40, w50, w51, w60⟩ := idx_whole t
  funext y
  show V c main_arg2 (((cfg0.win 1).blk t).view.emb y) = V c main_arg2 y
  refine congrArg (V c main_arg2) (funext fun a => Fin.ext ?_)
  match a with
  | ⟨0, _⟩ => show win0_1.index t (0 : Fin 2) * 256 + 1 * (y 0).val = (y 0).val; omega
  | ⟨1, _⟩ => show win0_1.index t (1 : Fin 2) * 256 + 1 * (y 1).val = (y 1).val; omega

theorem iblk0_2_eq (c : Dev nD) (t : Fin cfg0.N) : iblk0 V c 2 t = V c main_arg3 := by
  obtain ⟨w10, w11, w20, w30, w31, w40, w50, w51, w60⟩ := idx_whole t
  funext y
  show V c main_arg3 (((cfg0.win 2).blk t).view.emb y) = V c main_arg3 y
  refine congrArg (V c main_arg3) (funext fun a => Fin.ext ?_)
  match a with
  | ⟨0, _⟩ => show win0_2.index t (0 : Fin 1) * 256 + 1 * (y 0).val = (y 0).val; omega

theorem iblk0_3_eq (c : Dev nD) (t : Fin cfg0.N) : iblk0 V c 3 t = V c main_arg4 := by
  obtain ⟨w10, w11, w20, w30, w31, w40, w50, w51, w60⟩ := idx_whole t
  funext y
  show V c main_arg4 (((cfg0.win 3).blk t).view.emb y) = V c main_arg4 y
  refine congrArg (V c main_arg4) (funext fun a => Fin.ext ?_)
  match a with
  | ⟨0, _⟩ => show win0_3.index t (0 : Fin 2) * 256 + 1 * (y 0).val = (y 0).val; omega
  | ⟨1, _⟩ => show win0_3.index t (1 : Fin 2) * 256 + 1 * (y 1).val = (y 1).val; omega

theorem iblk0_4_eq (c : Dev nD) (t : Fin cfg0.N) : iblk0 V c 4 t = V c main_arg5 := by
  obtain ⟨w10, w11, w20, w30, w31, w40, w50, w51, w60⟩ := idx_whole t
  funext y
  show V c main_arg5 (((cfg0.win 4).blk t).view.emb y) = V c main_arg5 y
  refine congrArg (V c main_arg5) (funext fun a => Fin.ext ?_)
  match a with
  | ⟨0, _⟩ => show win0_4.index t (0 : Fin 1) * 256 + 1 * (y 0).val = (y 0).val; omega

theorem iblk0_5_eq (c : Dev nD) (t : Fin cfg0.N) : iblk0 V c 5 t = V c main_arg6 := by
  obtain ⟨w10, w11, w20, w30, w31, w40, w50, w51, w60⟩ := idx_whole t
  funext y
  show V c main_arg6 (((cfg0.win 5).blk t).view.emb y) = V c main_arg6 y
  refine congrArg (V c main_arg6) (funext fun a => Fin.ext ?_)
  match a with
  | ⟨0, _⟩ => show win0_5.index t (0 : Fin 2) * 256 + 1 * (y 0).val = (y 0).val; omega
  | ⟨1, _⟩ => show win0_5.index t (1 : Fin 2) * 256 + 1 * (y 1).val = (y 1).val; omega

theorem iblk0_6_eq (c : Dev nD) (t : Fin cfg0.N) : iblk0 V c 6 t = V c main_arg7 := by
  obtain ⟨w10, w11, w20, w30, w31, w40, w50, w51, w60⟩ := idx_whole t
  funext y
  show V c main_arg7 (((cfg0.win 6).blk t).view.emb y) = V c main_arg7 y
  refine congrArg (V c main_arg7) (funext fun a => Fin.ext ?_)
  match a with
  | ⟨0, _⟩ => show win0_6.index t (0 : Fin 1) * 256 + 1 * (y 0).val = (y 0).val; omega

theorem flushedQ_eq (c : Dev nD) (t : Fin cfg0.N) :
    (dat0 (F := Ideal) V c).flushed 7 t
      = ((cfg0.win 7).blk t).view.read (Elt Ideal) (GQ (V c main_arg0) (V c main_arg2) (V c main_arg3)) := by
  show (cfg0.win 7).cut (grid0.coords t) ((dat0 (F := Ideal) V c).after 7 t) = _
  rw [after0_7]
  unfold out0_7
  rw [View.canon_unit_zero hz3]
  simp only [View.ld_unit_zero (S := S1x1024x256) hz3, View.ld_unit_zero (S := S256x256) hz2, View.ld_unit_zero (S := S256) hz1]
  funext j
  show k0_pay4 (F := Ideal) (iblk0 V c 0 t) (iblk0 V c 1 t) (iblk0 V c 2 t) (win0_7.xinj (grid0.coords t) j)
    = GQ (V c main_arg0) (V c main_arg2) (V c main_arg3) (((cfg0.win 7).blk t).view.emb j)
  obtain ⟨a0, a1, a2, q0, q1, q2, k0, k1, k2, v0, v1, v2⟩ := idx_facts t
  have hj0 : (j 0).val < 1 := (j 0).isLt
  refine payQ_block _ _ _ _ _ _ _ _ (fun d => ?_) (iblk0_1_eq V c t) (iblk0_2_eq V c t) ?_
  · show V c main_arg0 (((cfg0.win 0).blk t).view.emb (ix3 (0 : Fin 1) (win0_7.xinj (grid0.coords t) j 1 : Fin 1024) d)) = V c main_arg0 _
    refine congrArg (V c main_arg0) (funext fun a => Fin.ext ?_)
    match a with
    | ⟨0, _⟩ => show win0_0.index t (0 : Fin 3) * 1 + 1 * 0 = win0_7.index t (0 : Fin 3) * 1 + 1 * (j 0).val; omega
    | ⟨1, _⟩ => show win0_0.index t (1 : Fin 3) * 1024 + 1 * (j 1).val = win0_7.index t (1 : Fin 3) * 1024 + 1 * (j 1).val; omega
    | ⟨2, _⟩ => show win0_0.index t (2 : Fin 3) * 256 + 1 * d.val = d.val; omega
  · show (j 2).val = win0_7.index t (2 : Fin 3) * 256 + 1 * (j 2).val; omega

theorem coverQ (i : S4x4096x256.Idx) :
    ∃ t : Fin cfg0.N, (cfg0.win 7).flush t = true ∧ i ∈ ((cfg0.win 7).blk t).view.set := by
  have h0 : (i 0).val < 4 := (i 0).isLt
  have h1 : (i 1).val < 4096 := (i 1).isLt
  have h2 : (i 2).val < 256 := (i 2).isLt
  have hN : cfg0.N = 16 := N_0
  obtain ⟨t, ht⟩ : ∃ t : Fin cfg0.N, t.val = (i 0).val * 4 + (i 1).val / 1024 := ⟨⟨(i 0).val * 4 + (i 1).val / 1024, by rw [hN]; omega⟩, rfl⟩
  refine ⟨t, flush0_7 t, ?_⟩
  show i ∈ ((View.whole main_v0_0).slice (win0_7.rect t)).set
  rw [View.set_slice_whole, Rect.mem_set_unit]
  obtain ⟨a0, a1, a2, q0, q1, q2, k0, k1, k2, v0, v1, v2⟩ := idx_facts t
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 1024 ≤ (i 1).val ∧ (i 1).val < win0_7.index t (1 : Fin 3) * 1024 + 1024; omega
  | ⟨2, _⟩ => show win0_7.index t (2 : Fin 3) * 256 ≤ (i 2).val ∧ (i 2).val < win0_7.index t (2 : Fin 3) * 256 + 256; omega

theorem flushedK_eq (c : Dev nD) (t : Fin cfg0.N) :
    (dat0 (F := Ideal) V c).flushed 8 t
      = ((cfg0.win 8).blk t).view.read (Elt Ideal) (GP (V c main_arg0) (V c main_arg4) (V c main_arg5)) := by
  show (cfg0.win 8).cut (grid0.coords t) ((dat0 (F := Ideal) V c).after 8 t) = _
  rw [after0_8]
  unfold out0_8
  rw [View.canon_unit_zero hz3]
  simp only [View.ld_unit_zero (S := S1x1024x256) hz3, View.ld_unit_zero (S := S256x256) hz2, View.ld_unit_zero (S := S256) hz1]
  funext j
  show k0_pay5 (F := Ideal) (iblk0 V c 0 t) (iblk0 V c 3 t) (iblk0 V c 4 t) (win0_8.xinj (grid0.coords t) j)
    = GP (V c main_arg0) (V c main_arg4) (V c main_arg5) (((cfg0.win 8).blk t).view.emb j)
  obtain ⟨a0, a1, a2, q0, q1, q2, k0, k1, k2, v0, v1, v2⟩ := idx_facts t
  have hj0 : (j 0).val < 1 := (j 0).isLt
  refine payK_block _ _ _ _ _ _ _ _ (fun d => ?_) (iblk0_3_eq V c t) (iblk0_4_eq V c t) ?_
  · show V c main_arg0 (((cfg0.win 0).blk t).view.emb (ix3 (0 : Fin 1) (win0_8.xinj (grid0.coords t) j 1 : Fin 1024) d)) = V c main_arg0 _
    refine congrArg (V c main_arg0) (funext fun a => Fin.ext ?_)
    match a with
    | ⟨0, _⟩ => show win0_0.index t (0 : Fin 3) * 1 + 1 * 0 = win0_8.index t (0 : Fin 3) * 1 + 1 * (j 0).val; omega
    | ⟨1, _⟩ => show win0_0.index t (1 : Fin 3) * 1024 + 1 * (j 1).val = win0_8.index t (1 : Fin 3) * 1024 + 1 * (j 1).val; omega
    | ⟨2, _⟩ => show win0_0.index t (2 : Fin 3) * 256 + 1 * d.val = d.val; omega
  · show (j 2).val = win0_8.index t (2 : Fin 3) * 256 + 1 * (j 2).val; omega

theorem coverK (i : S4x4096x256.Idx) :
    ∃ t : Fin cfg0.N, (cfg0.win 8).flush t = true ∧ i ∈ ((cfg0.win 8).blk t).view.set := by
  have h0 : (i 0).val < 4 := (i 0).isLt
  have h1 : (i 1).val < 4096 := (i 1).isLt
  have h2 : (i 2).val < 256 := (i 2).isLt
  have hN : cfg0.N = 16 := N_0
  obtain ⟨t, ht⟩ : ∃ t : Fin cfg0.N, t.val = (i 0).val * 4 + (i 1).val / 1024 := ⟨⟨(i 0).val * 4 + (i 1).val / 1024, by rw [hN]; omega⟩, rfl⟩
  refine ⟨t, flush0_8 t, ?_⟩
  show i ∈ ((View.whole main_v0_1).slice (win0_8.rect t)).set
  rw [View.set_slice_whole, Rect.mem_set_unit]
  obtain ⟨a0, a1, a2, q0, q1, q2, k0, k1, k2, v0, v1, v2⟩ := idx_facts t
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 1024 ≤ (i 1).val ∧ (i 1).val < win0_8.index t (1 : Fin 3) * 1024 + 1024; omega
  | ⟨2, _⟩ => show win0_8.index t (2 : Fin 3) * 256 ≤ (i 2).val ∧ (i 2).val < win0_8.index t (2 : Fin 3) * 256 + 256; omega

theorem flushedV_eq (c : Dev nD) (t : Fin cfg0.N) :
    (dat0 (F := Ideal) V c).flushed 9 t
      = ((cfg0.win 9).blk t).view.read (Elt Ideal) (GP (V c main_arg0) (V c main_arg6) (V c main_arg7)) := by
  show (cfg0.win 9).cut (grid0.coords t) ((dat0 (F := Ideal) V c).after 9 t) = _
  rw [after0_9]
  unfold out0_9
  rw [View.canon_unit_zero hz3]
  simp only [View.ld_unit_zero (S := S1x1024x256) hz3, View.ld_unit_zero (S := S256x256) hz2, View.ld_unit_zero (S := S256) hz1]
  funext j
  show k0_pay1 (F := Ideal) (k0_pay3 (F := Ideal) (iblk0 V c 0 t) (iblk0 V c 5 t) (iblk0 V c 6 t)) (win0_9.xinj (grid0.coords t) j)
    = GP (V c main_arg0) (V c main_arg6) (V c main_arg7) (((cfg0.win 9).blk t).view.emb j)
  obtain ⟨a0, a1, a2, q0, q1, q2, k0, k1, k2, v0, v1, v2⟩ := idx_facts t
  have hj0 : (j 0).val < 1 := (j 0).isLt
  refine payV_block _ _ _ _ _ _ _ _ (fun d => ?_) (iblk0_5_eq V c t) (iblk0_6_eq V c t) ?_
  · show V c main_arg0 (((cfg0.win 0).blk t).view.emb (ix3 (0 : Fin 1) (win0_9.xinj (grid0.coords t) j 1 : Fin 1024) d)) = V c main_arg0 _
    refine congrArg (V c main_arg0) (funext fun a => Fin.ext ?_)
    match a with
    | ⟨0, _⟩ => show win0_0.index t (0 : Fin 3) * 1 + 1 * 0 = win0_9.index t (0 : Fin 3) * 1 + 1 * (j 0).val; omega
    | ⟨1, _⟩ => show win0_0.index t (1 : Fin 3) * 1024 + 1 * (j 1).val = win0_9.index t (1 : Fin 3) * 1024 + 1 * (j 1).val; omega
    | ⟨2, _⟩ => show win0_0.index t (2 : Fin 3) * 256 + 1 * d.val = d.val; omega
  · show (j 2).val = win0_9.index t (2 : Fin 3) * 256 + 1 * (j 2).val; omega

theorem coverV (i : S4x4096x256.Idx) :
    ∃ t : Fin cfg0.N, (cfg0.win 9).flush t = true ∧ i ∈ ((cfg0.win 9).blk t).view.set := by
  have h0 : (i 0).val < 4 := (i 0).isLt
  have h1 : (i 1).val < 4096 := (i 1).isLt
  have h2 : (i 2).val < 256 := (i 2).isLt
  have hN : cfg0.N = 16 := N_0
  obtain ⟨t, ht⟩ : ∃ t : Fin cfg0.N, t.val = (i 0).val * 4 + (i 1).val / 1024 := ⟨⟨(i 0).val * 4 + (i 1).val / 1024, by rw [hN]; omega⟩, rfl⟩
  refine ⟨t, flush0_9 t, ?_⟩
  show i ∈ ((View.whole main_v0_2).slice (win0_9.rect t)).set
  rw [View.set_slice_whole, Rect.mem_set_unit]
  obtain ⟨a0, a1, a2, q0, q1, q2, k0, k1, k2, v0, v1, v2⟩ := idx_facts t
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 1024 ≤ (i 1).val ∧ (i 1).val < win0_9.index t (1 : Fin 3) * 1024 + 1024; omega
  | ⟨2, _⟩ => show win0_9.index t (2 : Fin 3) * 256 ≤ (i 2).val ∧ (i 2).val < win0_9.index t (2 : Fin 3) * 256 + 256; omega

/-- After the projection region the three output arrays are x Wᵀ + b, the queries also scaled by 1/16. -/
theorem arrQ (c : Dev nD) : (dat0 (F := Ideal) V c).arrAt 7 cfg0.N
    = fun i => Cert.Attn.proj (V c main_arg0) (V c main_arg2) (V c main_arg3) (i 0) (i 1) (i 2) * (((1 / 16 : ℝ)) : EReal) :=
  (dat0 (F := Ideal) V c).arrAt_eq_of_cover 7 (GQ (V c main_arg0) (V c main_arg2) (V c main_arg3))
    (fun t _ => flushedQ_eq V c t) coverQ

theorem arrK (c : Dev nD) : (dat0 (F := Ideal) V c).arrAt 8 cfg0.N
    = fun i => Cert.Attn.proj (V c main_arg0) (V c main_arg4) (V c main_arg5) (i 0) (i 1) (i 2) :=
  (dat0 (F := Ideal) V c).arrAt_eq_of_cover 8 (GP (V c main_arg0) (V c main_arg4) (V c main_arg5))
    (fun t _ => flushedK_eq V c t) coverK

theorem arrV (c : Dev nD) : (dat0 (F := Ideal) V c).arrAt 9 cfg0.N
    = fun i => Cert.Attn.proj (V c main_arg0) (V c main_arg6) (V c main_arg7) (i 0) (i 1) (i 2) :=
  (dat0 (F := Ideal) V c).arrAt_eq_of_cover 9 (GP (V c main_arg0) (V c main_arg6) (V c main_arg7))
    (fun t _ => flushedV_eq V c t) coverV

end Arrays

end Cert.KernelIdeal.ProjArrays

end
-- ==== Proof.FlashPieces.lean ====
import proofs.«410878_j7164005449951_3_alg».proof.Proof.FlashRegionIdeal
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

abbrev kvRect (i : grid1.Coords) : Rect S1x4096x256 := Rect.unit (s := S1x4096x256) (k1_off1 i) S1x1024x256.size (k1_off1_inb i)

theorem hz2 : (![0, 0] : Fin 2 → Nat) = fun _ => 0 := funext fun a => by fin_cases a <;> rfl
theorem hz3 : (![0, 0, 0] : Fin 3 → Nat) = fun _ => 0 := funext fun a => by fin_cases a <;> rfl

section Cases
variable (c : Dev nD) (i : grid1.Coords) (arg3 : Memref sig .tc .vmem S1x1024x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x1024x1024 .i32) (harg6 : arg6.IsWhole) (arg7 : Memref sig .tc .vmem S1x1024x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x256 .f32) (harg10 : arg10.IsWhole) (x0 : Vec F S1x1024x256 .bf16) (x1 : Vec F S1x4096x256 .bf16) (x2 : Vec F S1x4096x256 .bf16) (x3 : Vec F S1x1024x1024 .i32)

section A
variable (hc0 : cond1_0 i) (hc1 : ¬cond1_1 i)

theorem sout1_A_0_eq :
    sout1_A_0 c i arg3 harg3 arg4 harg4 arg5 harg5 arg6 harg6 arg7 harg7 arg8 harg8 arg9 harg9 arg10 harg10 x0 x1 x2 x3 hc0 hc1 = k1_pay3 (k1_pay10 (View.ld x1 (kvRect i)) x0 x3 k1_pay5) := by
  unfold sout1_A_0
  rw [View.read_writes_eq_canon _ _ _ (View.cover_of_tiledL (kernelRun1_A c i arg3 harg3 arg4 harg4 arg5 harg5 arg6 harg6 arg7 harg7 arg8 harg8 arg9 harg9 arg10 harg10 hc0 hc1 x0 x1 x2 x3).2.1 S1024x1.size (by sl_kernel_rfl))]
  unfold kernelRun1_A
  dsimp only
  sl_unfold_words
  rw [View.canon_cons_unit_zero (S := S1024x1) hz2]
  simp only [View.readAt_eq_ld, harg3.read_unread, harg4.read_unread, harg6.read_unread, View.ld_unit_zero (S := S1x1024x256) hz3, View.ld_unit_zero (S := S1x1024x1024) hz3, View.readCov_unit_zero (S := S1024x1) _ hz2]
  rfl

theorem sout1_A_1_eq :
    sout1_A_1 c i arg3 harg3 arg4 harg4 arg5 harg5 arg6 harg6 arg7 harg7 arg8 harg8 arg9 harg9 arg10 harg10 x0 x1 x2 x3 hc0 hc1 = k1_pay1 (k1_pay12 (View.ld x1 (kvRect i)) x0 x3 k1_pay5) (k1_pay13 (View.ld x1 (kvRect i)) x0 x3 k1_pay5 k1_pay5 k1_pay6) := by
  unfold sout1_A_1
  rw [View.read_writes_eq_canon _ _ _ (View.cover_of_tiledL (kernelRun1_A c i arg3 harg3 arg4 harg4 arg5 harg5 arg6 harg6 arg7 harg7 arg8 harg8 arg9 harg9 arg10 harg10 hc0 hc1 x0 x1 x2 x3).2.2.1 S1024x1.size (by sl_kernel_rfl))]
  unfold kernelRun1_A
  dsimp only
  sl_unfold_words
  rw [View.canon_cons_unit_zero (S := S1024x1) hz2]
  simp only [View.readAt_eq_ld, harg3.read_unread, harg4.read_unread, harg6.read_unread, View.ld_unit_zero (S := S1x1024x256) hz3, View.ld_unit_zero (S := S1x1024x1024) hz3, View.readCov_unit_zero (S := S1024x1) _ hz2]
  rfl

theorem sout1_A_2_eq :
    sout1_A_2 c i arg3 harg3 arg4 harg4 arg5 harg5 arg6 harg6 arg7 harg7 arg8 harg8 arg9 harg9 arg10 harg10 x0 x1 x2 x3 hc0 hc1 = k1_pay2 (k1_pay8 (View.ld x2 (kvRect i))) (k1_pay11 (View.ld x1 (kvRect i)) x0 x3 k1_pay5 k1_pay5) (k1_pay12 (View.ld x1 (kvRect i)) x0 x3 k1_pay5) k1_pay7 := by
  unfold sout1_A_2
  rw [View.read_writes_eq_canon _ _ _ (View.cover_of_tiledL (kernelRun1_A c i arg3 harg3 arg4 harg4 arg5 harg5 arg6 harg6 arg7 harg7 arg8 harg8 arg9 harg9 arg10 harg10 hc0 hc1 x0 x1 x2 x3).2.2.2.1 S1024x256.size (by sl_kernel_rfl))]
  unfold kernelRun1_A
  dsimp only
  sl_unfold_words
  rw [View.canon_cons_unit_zero (S := S1024x256) hz2]
  simp only [View.readAt_eq_ld, harg3.read_unread, harg4.read_unread, harg5.read_unread, harg6.read_unread, View.ld_unit_zero (S := S1x1024x256) hz3, View.ld_unit_zero (S := S1x1024x1024) hz3, View.readCov_unit_zero (S := S1024x1) _ hz2, View.readCov_unit_zero (S := S1024x256) _ hz2]
  rfl

end A

section B
variable (hc0 : ¬cond1_0 i) (hc1 : ¬cond1_1 i) (xs0 : Vec F S1024x1 .f32) (xs1 : Vec F S1024x1 .f32) (xs2 : Vec F S1024x256 .f32)

theorem sout1_B_0_eq :
    sout1_B_0 c i arg3 harg3 arg4 harg4 arg5 harg5 arg6 harg6 arg7 harg7 arg8 harg8 arg9 harg9 arg10 harg10 x0 x1 x2 x3 hc0 hc1 xs0 xs1 xs2 = k1_pay3 (k1_pay10 (View.ld x1 (kvRect i)) x0 x3 xs0) := by
  unfold sout1_B_0
  rw [View.read_writes_eq_canon _ _ _ (View.cover_of_tiledL (kernelRun1_B c i arg3 harg3 arg4 harg4 arg5 harg5 arg6 harg6 arg7 harg7 arg8 harg8 arg9 harg9 arg10 harg10 hc0 hc1 x0 x1 x2 x3 xs0 xs1 xs2).2.1 S1024x1.size (by sl_kernel_rfl))]
  unfold kernelRun1_B
  dsimp only
  sl_unfold_words
  rw [View.canon_cons_unit_zero (S := S1024x1) hz2]
  simp only [View.readAt_eq_ld, harg3.read_unread, harg4.read_unread, harg6.read_unread, harg8.read_unread, View.ld_unit_zero (S := S1x1024x256) hz3, View.ld_unit_zero (S := S1x1024x1024) hz3, View.ld_unit_zero (S := S1024x1) hz2]
  rfl

theorem sout1_B_1_eq :
    sout1_B_1 c i arg3 harg3 arg4 harg4 arg5 harg5 arg6 harg6 arg7 harg7 arg8 harg8 arg9 harg9 arg10 harg10 x0 x1 x2 x3 hc0 hc1 xs0 xs1 xs2 = k1_pay1 (k1_pay12 (View.ld x1 (kvRect i)) x0 x3 xs0) (k1_pay13 (View.ld x1 (kvRect i)) x0 x3 xs0 xs0 xs1) := by
  unfold sout1_B_1
  rw [View.read_writes_eq_canon _ _ _ (View.cover_of_tiledL (kernelRun1_B c i arg3 harg3 arg4 harg4 arg5 harg5 arg6 harg6 arg7 harg7 arg8 harg8 arg9 harg9 arg10 harg10 hc0 hc1 x0 x1 x2 x3 xs0 xs1 xs2).2.2.1 S1024x1.size (by sl_kernel_rfl))]
  unfold kernelRun1_B
  dsimp only
  sl_unfold_words
  rw [View.canon_cons_unit_zero (S := S1024x1) hz2]
  simp only [View.readAt_eq_ld, harg3.read_unread, harg4.read_unread, harg6.read_unread, harg8.read_unread, harg9.read_unread, View.ld_unit_zero (S := S1x1024x256) hz3, View.ld_unit_zero (S := S1x1024x1024) hz3, View.ld_unit_zero (S := S1024x1) hz2]
  rfl

theorem sout1_B_2_eq :
    sout1_B_2 c i arg3 harg3 arg4 harg4 arg5 harg5 arg6 harg6 arg7 harg7 arg8 harg8 arg9 harg9 arg10 harg10 x0 x1 x2 x3 hc0 hc1 xs0 xs1 xs2 = k1_pay2 (k1_pay8 (View.ld x2 (kvRect i))) (k1_pay11 (View.ld x1 (kvRect i)) x0 x3 xs0 xs0) (k1_pay12 (View.ld x1 (kvRect i)) x0 x3 xs0) xs2 := by
  unfold sout1_B_2
  rw [View.read_writes_eq_canon _ _ _ (View.cover_of_tiledL (kernelRun1_B c i arg3 harg3 arg4 harg4 arg5 harg5 arg6 harg6 arg7 harg7 arg8 harg8 arg9 harg9 arg10 harg10 hc0 hc1 x0 x1 x2 x3 xs0 xs1 xs2).2.2.2.1 S1024x256.size (by sl_kernel_rfl))]
  unfold kernelRun1_B
  dsimp only
  sl_unfold_words
  rw [View.canon_cons_unit_zero (S := S1024x256) hz2]
  simp only [View.readAt_eq_ld, harg3.read_unread, harg4.read_unread, harg5.read_unread, harg6.read_unread, harg8.read_unread, harg10.read_unread, View.ld_unit_zero (S := S1x1024x256) hz3, View.ld_unit_zero (S := S1x1024x1024) hz3, View.ld_unit_zero (S := S1024x1) hz2, View.ld_unit_zero (S := S1024x256) hz2]
  rfl

end B

section C
variable (hc0 : ¬cond1_0 i) (hc1 : cond1_1 i) (xs0 : Vec F S1024x1 .f32) (xs1 : Vec F S1024x1 .f32) (xs2 : Vec F S1024x256 .f32)

theorem sout1_C_0_eq :
    sout1_C_0 c i arg3 harg3 arg4 harg4 arg5 harg5 arg6 harg6 arg7 harg7 arg8 harg8 arg9 harg9 arg10 harg10 x0 x1 x2 x3 hc0 hc1 xs0 xs1 xs2 = k1_pay3 (k1_pay10 (View.ld x1 (kvRect i)) x0 x3 xs0) := by
  unfold sout1_C_0
  rw [View.read_writes_eq_canon _ _ _ (View.cover_of_tiledL (kernelRun1_C c i arg3 harg3 arg4 harg4 arg5 harg5 arg6 harg6 arg7 harg7 arg8 harg8 arg9 harg9 arg10 harg10 hc0 hc1 x0 x1 x2 x3 xs0 xs1 xs2).2.1 S1024x1.size (by sl_kernel_rfl))]
  unfold kernelRun1_C
  dsimp only
  sl_unfold_words
  rw [View.canon_cons_unit_zero (S := S1024x1) hz2]
  simp only [View.readAt_eq_ld, harg3.read_unread, harg4.read_unread, harg6.read_unread, harg8.read_unread, View.ld_unit_zero (S := S1x1024x256) hz3, View.ld_unit_zero (S := S1x1024x1024) hz3, View.ld_unit_zero (S := S1024x1) hz2]
  rfl

theorem sout1_C_1_eq :
    sout1_C_1 c i arg3 harg3 arg4 harg4 arg5 harg5 arg6 harg6 arg7 harg7 arg8 harg8 arg9 harg9 arg10 harg10 x0 x1 x2 x3 hc0 hc1 xs0 xs1 xs2 = k1_pay1 (k1_pay12 (View.ld x1 (kvRect i)) x0 x3 xs0) (k1_pay13 (View.ld x1 (kvRect i)) x0 x3 xs0 xs0 xs1) := by
  unfold sout1_C_1
  rw [View.read_writes_eq_canon _ _ _ (View.cover_of_tiledL (kernelRun1_C c i arg3 harg3 arg4 harg4 arg5 harg5 arg6 harg6 arg7 harg7 arg8 harg8 arg9 harg9 arg10 harg10 hc0 hc1 x0 x1 x2 x3 xs0 xs1 xs2).2.2.1 S1024x1.size (by sl_kernel_rfl))]
  unfold kernelRun1_C
  dsimp only
  sl_unfold_words
  rw [View.canon_cons_unit_zero (S := S1024x1) hz2]
  simp only [View.readAt_eq_ld, harg3.read_unread, harg4.read_unread, harg6.read_unread, harg8.read_unread, harg9.read_unread, View.ld_unit_zero (S := S1x1024x256) hz3, View.ld_unit_zero (S := S1x1024x1024) hz3, View.ld_unit_zero (S := S1024x1) hz2]
  rfl

theorem sout1_C_2_eq :
    sout1_C_2 c i arg3 harg3 arg4 harg4 arg5 harg5 arg6 harg6 arg7 harg7 arg8 harg8 arg9 harg9 arg10 harg10 x0 x1 x2 x3 hc0 hc1 xs0 xs1 xs2 = k1_pay2 (k1_pay8 (View.ld x2 (kvRect i))) (k1_pay11 (View.ld x1 (kvRect i)) x0 x3 xs0 xs0) (k1_pay12 (View.ld x1 (kvRect i)) x0 x3 xs0) xs2 := by
  unfold sout1_C_2
  rw [View.read_writes_eq_canon _ _ _ (View.cover_of_tiledL (kernelRun1_C c i arg3 harg3 arg4 harg4 arg5 harg5 arg6 harg6 arg7 harg7 arg8 harg8 arg9 harg9 arg10 harg10 hc0 hc1 x0 x1 x2 x3 xs0 xs1 xs2).2.2.2.1 S1024x256.size (by sl_kernel_rfl))]
  unfold kernelRun1_C
  dsimp only
  sl_unfold_words
  rw [View.canon_cons_unit_zero (S := S1024x256) hz2]
  simp only [View.readAt_eq_ld, harg3.read_unread, harg4.read_unread, harg5.read_unread, harg6.read_unread, harg8.read_unread, harg10.read_unread, View.ld_unit_zero (S := S1x1024x256) hz3, View.ld_unit_zero (S := S1x1024x1024) hz3, View.ld_unit_zero (S := S1024x1) hz2, View.ld_unit_zero (S := S1024x256) hz2]
  rfl

theorem out1_C_4_eq :
    out1_C_4 c i arg3 harg3 arg4 harg4 arg5 harg5 arg6 harg6 arg7 harg7 arg8 harg8 arg9 harg9 arg10 harg10 x0 x1 x2 x3 hc0 hc1 xs0 xs1 xs2 = k1_pay4 (k1_pay2 (k1_pay8 (View.ld x2 (kvRect i))) (k1_pay11 (View.ld x1 (kvRect i)) x0 x3 xs0 xs0) (k1_pay12 (View.ld x1 (kvRect i)) x0 x3 xs0) xs2) (k1_pay1 (k1_pay12 (View.ld x1 (kvRect i)) x0 x3 xs0) (k1_pay13 (View.ld x1 (kvRect i)) x0 x3 xs0 xs0 xs1)) := by
  unfold out1_C_4
  rw [View.read_writes_eq_canon _ _ _ (View.cover_of_tiledL (kernelRun1_C c i arg3 harg3 arg4 harg4 arg5 harg5 arg6 harg6 arg7 harg7 arg8 harg8 arg9 harg9 arg10 harg10 hc0 hc1 x0 x1 x2 x3 xs0 xs1 xs2).1 S1x1024x256.size (by sl_kernel_rfl))]
  unfold kernelRun1_C
  dsimp only
  sl_unfold_words
  rw [View.canon_cons_unit_zero (S := S1x1024x256) hz3]
  simp only [View.readAt_eq_ld, harg3.read_unread, harg4.read_unread, harg5.read_unread, harg6.read_unread, harg8.read_unread, harg9.read_unread, harg10.read_unread, View.ld_unit_zero (S := S1x1024x256) hz3, View.ld_unit_zero (S := S1x1024x1024) hz3, View.ld_unit_zero (S := S1024x1) hz2, View.ld_unit_zero (S := S1024x256) hz2, View.readCov_unit_zero (S := S1024x1) _ hz2, View.readCov_unit_zero (S := S1024x256) _ hz2]
  rfl

end C

end Cases

end Cert.KernelIdeal.Hand

end
-- ==== Proof.FlashCoords.lean ====
import proofs.«410878_j7164005449951_3_alg».proof.Proof.Gen.KernelIdeal.Launch
import proofs.«410878_j7164005449951_3_alg».proof.Proof.AttnSpec

noncomputable section

namespace Cert.KernelIdeal.FlashCoords

open Cert.KernelIdeal Cert.KernelIdeal.Gen Idealize.ShloMosaic Idealize.ShloMosaic.ValueIdx

theorem lt64 (t : Fin cfg1.N) : t.val < 64 := lt_of_lt_of_eq t.isLt N_1

def batchOf (t : Fin cfg1.N) : Fin 4 := ⟨t.val / 16, by have := lt64 t; omega⟩
def qBlockOf (t : Fin cfg1.N) : Fin 4 := ⟨t.val / 4 % 4, by omega⟩
def kBlockOf (t : Fin cfg1.N) : Fin 4 := ⟨t.val % 4, by omega⟩
def qRow (t : Fin cfg1.N) (r : Fin 1024) : Fin 4096 := Cert.Attn.keyOf (qBlockOf t) r
def kRow (t : Fin cfg1.N) (j : Fin 1024) : Fin 4096 := Cert.Attn.keyOf (kBlockOf t) j

def sArr (Qs K : Cert.Attn.SX.Idx → EReal) (mask : Cert.Attn.SM.Idx → BitVec 32) (b : Fin 4) (n : Fin 4096) : Fin 4096 → EReal :=
  fun k => if mask (ix3 b n k) = 0#32 then ⊥ else ∑ d : Fin 256, Qs (ix3 b n d) * K (ix3 b k d)
def vArr (Vv : Cert.Attn.SX.Idx → EReal) (b : Fin 4) (e : Fin 256) : Fin 4096 → EReal :=
  fun k => Vv (ix3 b k e)

end Cert.KernelIdeal.FlashCoords

end
-- ==== Proof.FlashBlocks.lean ====
import proofs.«410878_j7164005449951_3_alg».proof.Proof.FlashRegionIdeal
import proofs.«410878_j7164005449951_3_alg».proof.Proof.FlashCoords
import Idealize.ShloMosaic.Lib.ValueIdx

noncomputable section

namespace Cert.KernelIdeal.FlashBlocks

open Idealize.ShloMosaic Idealize.ShloMosaic.ValueIdx Idealize.SL.Sem Idealize.ShloMosaic.TcCoe
open Cert.KernelIdeal Cert.KernelIdeal.Gen Cert.KernelIdeal.Hand Cert.KernelIdeal.FlashCoords

theorem idx_facts : ∀ t : Fin cfg1.N,
    win1_0.index t (0 : Fin 3) = t.val / 16 ∧ win1_0.index t (1 : Fin 3) = t.val / 4 % 4 ∧ win1_0.index t (2 : Fin 3) = 0
    ∧ win1_1.index t (0 : Fin 3) = t.val / 16 ∧ win1_1.index t (1 : Fin 3) = 0 ∧ win1_1.index t (2 : Fin 3) = 0
    ∧ win1_2.index t (0 : Fin 3) = t.val / 16 ∧ win1_2.index t (1 : Fin 3) = 0 ∧ win1_2.index t (2 : Fin 3) = 0
    ∧ win1_3.index t (0 : Fin 3) = t.val / 16 ∧ win1_3.index t (1 : Fin 3) = t.val / 4 % 4 ∧ win1_3.index t (2 : Fin 3) = t.val % 4
    ∧ (grid1.coords t 2).val = t.val % 4 :=
  (by decide +kernel : ∀ t : Fin grid1.N, _)

abbrev kvRectAt (t : Fin cfg1.N) : Rect S1x4096x256 :=
  Rect.unit (s := S1x4096x256) (k1_off1 (grid1.coords t)) S1x1024x256.size (k1_off1_inb (grid1.coords t))

variable {F : FTy → Type}
variable (V : (c : Dev nD) → (b : Ref sig .tc) → Buf (Elt F) ((c : Thread nD τ).loc b))

theorem qblk_apply (c : Dev nD) (t : Fin cfg1.N) (r : Fin 1024) (d : Fin 256) :
    (iblk1 (F := F) V c 0 t : Vec F S1x1024x256 .bf16) (ix3 0 r d)
      = V c main_v0_0 (ix3 (batchOf t) (qRow t r) d) := by
  obtain ⟨e0, e1, e2, -⟩ := idx_facts t
  show V c main_v0_0 (((cfg1.win 0).blk t).view.emb (ix3 0 r d)) = _
  refine congrArg (V c main_v0_0) (funext fun a => Fin.ext ?_)
  match a with
  | ⟨0, _⟩ => show win1_0.index t (0 : Fin 3) * 1 + 1 * 0 = t.val / 16; omega
  | ⟨1, _⟩ => show win1_0.index t (1 : Fin 3) * 1024 + 1 * r.val = t.val / 4 % 4 * 1024 + r.val; omega
  | ⟨2, _⟩ => show win1_0.index t (2 : Fin 3) * 256 + 1 * d.val = d.val; omega

theorem kblk_apply (c : Dev nD) (t : Fin cfg1.N) (j : Fin 1024) (d : Fin 256) :
    View.ld (iblk1 (F := F) V c 1 t : Vec F S1x4096x256 .bf16) (kvRectAt t) (ix3 0 j d)
      = V c main_v0_1 (ix3 (batchOf t) (kRow t j) d) := by
  obtain ⟨-, -, -, e0, e1, e2, -, -, -, -, -, -, eg⟩ := idx_facts t
  have o0 : k1_off1 (grid1.coords t) 0 = 0 := congrFun (k1_off1_eq _) 0
  have o1 : k1_off1 (grid1.coords t) 1 = 1024 * (grid1.coords t 2).val := congrFun (k1_off1_eq _) 1
  have o2 : k1_off1 (grid1.coords t) 2 = 0 := congrFun (k1_off1_eq _) 2
  show V c main_v0_1 (((cfg1.win 1).blk t).view.emb ((kvRectAt t).idx (ix3 0 j d))) = _
  refine congrArg (V c main_v0_1) (funext fun a => Fin.ext ?_)
  match a with
  | ⟨0, _⟩ => show win1_1.index t (0 : Fin 3) * 1 + 1 * (k1_off1 (grid1.coords t) 0 + 1 * 0) = t.val / 16; omega
  | ⟨1, _⟩ => show win1_1.index t (1 : Fin 3) * 4096 + 1 * (k1_off1 (grid1.coords t) 1 + 1 * j.val) = t.val % 4 * 1024 + j.val; omega
  | ⟨2, _⟩ => show win1_1.index t (2 : Fin 3) * 256 + 1 * (k1_off1 (grid1.coords t) 2 + 1 * d.val) = d.val; omega

theorem vblk_apply (c : Dev nD) (t : Fin cfg1.N) (j : Fin 1024) (e : Fin 256) :
    View.ld (iblk1 (F := F) V c 2 t : Vec F S1x4096x256 .bf16) (kvRectAt t) (ix3 0 j e)
      = V c main_v0_2 (ix3 (batchOf t) (kRow t j) e) := by
  obtain ⟨-, -, -, -, -, -, e0, e1, e2, -, -, -, eg⟩ := idx_facts t
  have o0 : k1_off1 (grid1.coords t) 0 = 0 := congrFun (k1_off1_eq _) 0
  have o1 : k1_off1 (grid1.coords t) 1 = 1024 * (grid1.coords t 2).val := congrFun (k1_off1_eq _) 1
  have o2 : k1_off1 (grid1.coords t) 2 = 0 := congrFun (k1_off1_eq _) 2
  show V c main_v0_2 (((cfg1.win 2).blk t).view.emb ((kvRectAt t).idx (ix3 0 j e))) = _
  refine congrArg (V c main_v0_2) (funext fun a => Fin.ext ?_)
  match a with
  | ⟨0, _⟩ => show win1_2.index t (0 : Fin 3) * 1 + 1 * (k1_off1 (grid1.coords t) 0 + 1 * 0) = t.val / 16; omega
  | ⟨1, _⟩ => show win1_2.index t (1 : Fin 3) * 4096 + 1 * (k1_off1 (grid1.coords t) 1 + 1 * j.val) = t.val % 4 * 1024 + j.val; omega
  | ⟨2, _⟩ => show win1_2.index t (2 : Fin 3) * 256 + 1 * (k1_off1 (grid1.coords t) 2 + 1 * e.val) = e.val; omega

theorem mblk_apply (c : Dev nD) (t : Fin cfg1.N) (r j : Fin 1024) :
    (iblk1 (F := F) V c 3 t : Vec F S1x1024x1024 .i32) (ix3 0 r j)
      = V c main_arg1 (ix3 (batchOf t) (qRow t r) (kRow t j)) := by
  obtain ⟨-, -, -, -, -, -, -, -, -, e0, e1, e2, -⟩ := idx_facts t
  show V c main_arg1 (((cfg1.win 3).blk t).view.emb (ix3 0 r j)) = _
  refine congrArg (V c main_arg1) (funext fun a => Fin.ext ?_)
  match a with
  | ⟨0, _⟩ => show win1_3.index t (0 : Fin 3) * 1 + 1 * 0 = t.val / 16; omega
  | ⟨1, _⟩ => show win1_3.index t (1 : Fin 3) * 1024 + 1 * r.val = t.val / 4 % 4 * 1024 + r.val; omega
  | ⟨2, _⟩ => show win1_3.index t (2 : Fin 3) * 1024 + 1 * j.val = t.val % 4 * 1024 + j.val; omega

end Cert.KernelIdeal.FlashBlocks

end
-- ==== Proof.FlashPayload.lean ====
import proofs.«410878_j7164005449951_3_alg».proof.Proof.Gen.KernelIdeal.Skeleton
import proofs.«410878_j7164005449951_3_alg».proof.Proof.AttnSpec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.KernelIdeal.FlashValue

open Idealize.ShloMosaic Idealize.ShloMosaic.ValueIdx Cert.KernelIdeal

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem lhs_qk_0 (i : S1024x1024.Idx) (q : dot_S1024x256_S1024x256_S1024x1024_1_1_0_0_n_n.contr.Idx) :
    (dot_S1024x256_S1024x256_S1024x1024_1_1_0_0_n_n.lhsIdx i q 0).val = (i 0).val := by
  unfold DotDims.lhsIdx
  rw [dif_neg (show ¬(0 : Fin S1024x256.rank) ∈ dot_S1024x256_S1024x256_S1024x1024_1_1_0_0_n_n.lhsBatch by decide), dif_pos (show (0 : Fin S1024x256.rank) ∈ dot_S1024x256_S1024x256_S1024x1024_1_1_0_0_n_n.lhsNonContracting by decide)]
  rfl
theorem lhs_qk_1 (i : S1024x1024.Idx) (q : dot_S1024x256_S1024x256_S1024x1024_1_1_0_0_n_n.contr.Idx) :
    (dot_S1024x256_S1024x256_S1024x1024_1_1_0_0_n_n.lhsIdx i q 1).val = (q ⟨0, by decide⟩).val :=
  dot_S1024x256_S1024x256_S1024x1024_1_1_0_0_n_n.lhsIdx_val_of_single rfl i q
theorem rhs_qk_0 (i : S1024x1024.Idx) (q : dot_S1024x256_S1024x256_S1024x1024_1_1_0_0_n_n.contr.Idx) :
    (dot_S1024x256_S1024x256_S1024x1024_1_1_0_0_n_n.rhsIdx i q 0).val = (i 1).val := by
  unfold DotDims.rhsIdx
  rw [dif_neg (show ¬(0 : Fin S1024x256.rank) ∈ dot_S1024x256_S1024x256_S1024x1024_1_1_0_0_n_n.rhsBatch by decide), dif_pos (show (0 : Fin S1024x256.rank) ∈ dot_S1024x256_S1024x256_S1024x1024_1_1_0_0_n_n.rhsNonContracting by decide)]
  rfl
theorem rhs_qk_1 (i : S1024x1024.Idx) (q : dot_S1024x256_S1024x256_S1024x1024_1_1_0_0_n_n.contr.Idx) :
    (dot_S1024x256_S1024x256_S1024x1024_1_1_0_0_n_n.rhsIdx i q 1).val = (q ⟨0, by decide⟩).val :=
  dot_S1024x256_S1024x256_S1024x1024_1_1_0_0_n_n.rhsIdx_val_of_single rfl i q

theorem matmul_qk_apply (x y : FVec Ideal S1024x256 .bf16) (r j : Fin 1024) :
    matmul dot_S1024x256_S1024x256_S1024x1024_1_1_0_0_n_n none x y (constant (F := Ideal) S1024x1024 .f32 0x00000000#32) (ix2 r j)
      = ∑ d : Fin 256, x (ix2 r d) * y (ix2 j d) := by
  simp only [matmul]
  rw [Ideal.matmul_constant_zero_apply, ← Equiv.sum_comp (contrEquiv1 dot_S1024x256_S1024x256_S1024x1024_1_1_0_0_n_n 256 rfl rfl).symm]
  refine Finset.sum_congr rfl fun k _ => ?_
  have hk := contrEquiv1_symm_val dot_S1024x256_S1024x256_S1024x1024_1_1_0_0_n_n 256 rfl rfl k
  have el : dot_S1024x256_S1024x256_S1024x1024_1_1_0_0_n_n.lhsIdx (ix2 r j) ((contrEquiv1 dot_S1024x256_S1024x256_S1024x1024_1_1_0_0_n_n 256 rfl rfl).symm k) = ix2 r k := funext fun a => Fin.ext (by
    match a with
    | ⟨0, _⟩ => exact lhs_qk_0 _ _
    | ⟨1, _⟩ => exact (lhs_qk_1 _ _).trans hk)
  have er : dot_S1024x256_S1024x256_S1024x1024_1_1_0_0_n_n.rhsIdx (ix2 r j) ((contrEquiv1 dot_S1024x256_S1024x256_S1024x1024_1_1_0_0_n_n 256 rfl rfl).symm k) = ix2 j k := funext fun a => Fin.ext (by
    match a with
    | ⟨0, _⟩ => exact rhs_qk_0 _ _
    | ⟨1, _⟩ => exact (rhs_qk_1 _ _).trans hk)
  rw [el, er]

theorem lhs_pv_0 (i : S1024x256.Idx) (q : dot_S1024x1024_S1024x256_S1024x256_1_0_0_1_n_n.contr.Idx) :
    (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
theorem lhs_pv_1 (i : S1024x256.Idx) (q : dot_S1024x1024_S1024x256_S1024x256_1_0_0_1_n_n.contr.Idx) :
    (dot_S1024x1024_S1024x256_S1024x256_1_0_0_1_n_n.lhsIdx i q 1).val = (q ⟨0, by decide⟩).val :=
  dot_S1024x1024_S1024x256_S1024x256_1_0_0_1_n_n.lhsIdx_val_of_single rfl i q
theorem rhs_pv_0 (i : S1024x256.Idx) (q : dot_S1024x1024_S1024x256_S1024x256_1_0_0_1_n_n.contr.Idx) :
    (dot_S1024x1024_S1024x256_S1024x256_1_0_0_1_n_n.rhsIdx i q 0).val = (q ⟨0, by decide⟩).val :=
  dot_S1024x1024_S1024x256_S1024x256_1_0_0_1_n_n.rhsIdx_val_of_single rfl i q
theorem rhs_pv_1 (i : S1024x256.Idx) (q : dot_S1024x1024_S1024x256_S1024x256_1_0_0_1_n_n.contr.Idx) :
    (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl

theorem matmul_pv_apply (p : FVec Ideal S1024x1024 .bf16) (v : FVec Ideal S1024x256 .bf16) (r : Fin 1024) (e : Fin 256) :
    matmul dot_S1024x1024_S1024x256_S1024x256_1_0_0_1_n_n none p v (constant (F := Ideal) S1024x256 .f32 0x00000000#32) (ix2 r e)
      = ∑ j : Fin 1024, p (ix2 r j) * v (ix2 j e) := by
  simp only [matmul]
  rw [Ideal.matmul_constant_zero_apply, ← Equiv.sum_comp (contrEquiv1 dot_S1024x1024_S1024x256_S1024x256_1_0_0_1_n_n 1024 rfl rfl).symm]
  refine Finset.sum_congr rfl fun k _ => ?_
  have hk := contrEquiv1_symm_val dot_S1024x1024_S1024x256_S1024x256_1_0_0_1_n_n 1024 rfl rfl k
  have el : dot_S1024x1024_S1024x256_S1024x256_1_0_0_1_n_n.lhsIdx (ix2 r e) ((contrEquiv1 dot_S1024x1024_S1024x256_S1024x256_1_0_0_1_n_n 1024 rfl rfl).symm k) = ix2 r k := funext fun a => Fin.ext (by
    match a with
    | ⟨0, _⟩ => exact lhs_pv_0 _ _
    | ⟨1, _⟩ => exact (lhs_pv_1 _ _).trans hk)
  have er : dot_S1024x1024_S1024x256_S1024x256_1_0_0_1_n_n.rhsIdx (ix2 r e) ((contrEquiv1 dot_S1024x1024_S1024x256_S1024x256_1_0_0_1_n_n 1024 rfl rfl).symm k) = ix2 k e := funext fun a => Fin.ext (by
    match a with
    | ⟨0, _⟩ => exact (rhs_pv_0 _ _).trans hk
    | ⟨1, _⟩ => exact rhs_pv_1 _ _)
  rw [el, er]

theorem select_eq_zero {α : Type} (x : BitVec 32) (A B : α) :
    Scalar.select (IntOp.cmpi .eq x 0#32) A B = if x = 0#32 then A else B := by
  by_cases h : x = 0#32
  · subst h; rw [if_pos rfl]; rfl
  · rw [if_neg h]
    have h0 : IntOp.cmpi .eq x 0#32 = 0#1 := by
      show BitVec.ofBool (x == 0#32) = 0#1
      rw [beq_eq_false_iff_ne.mpr h]; rfl
    rw [h0]; exact select_zero A B

theorem ofBits_neg_inf : Ideal.ofBits .f32 0xFF800000#32 = ⊥ := by simp [Ideal.ofBits, Ideal.ieee]

theorem neg_big_eq : Named.named (F := Ideal) κ "neg_big" (φ := .f32) 0xF149F2CA#32 = ⊥ :=
  IdealRules.named_const.ideal_named_scalar _ _ _ _ rfl

theorem exp_apply {s : Shape} {φ : FTy} (a : FVec Ideal s φ) (i : s.Idx) : exp a i = Ideal.exp (a i) := rfl

theorem lift_row (h : S1024x1024.Reduces [1] S1024) (r k : Fin 1024) : h.lift (ix1 r) k = ix2 r k :=
  funext fun a => Fin.ext (by
    match a with
    | ⟨0, _⟩ => rfl
    | ⟨1, _⟩ => rfl)

theorem rowMax_apply (src : FVec Ideal S1024x1024 .f32) (r : Fin 1024) :
    multiReduction (F := Ideal) .maximumf [1] S1024 src 0xFF800000#32 Gen.reduces_S1024x1024_S1024 (.inl rfl) rfl (ix1 r)
      = Cert.Attn.rowMax (fun j : Fin 1024 => src (ix2 r j)) := by
  refine (Ideal.multiReduction_maximumf_single src _ Gen.reduces_S1024x1024_S1024 _ _ (ix1 r)).trans ?_
  have hf : (src ∘ Gen.reduces_S1024x1024_S1024.lift (ix1 r)) = fun j : Fin 1024 => src (ix2 r j) :=
    funext fun k => congrArg src (lift_row _ r k)
  rw [hf, Ideal.ofBits_def, ofBits_neg_inf]
  rfl

theorem rowSum_apply (src : FVec Ideal S1024x1024 .f32) (r : Fin 1024) :
    multiReduction (F := Ideal) .add [1] S1024 src 0x00000000#32 Gen.reduces_S1024x1024_S1024 (.inl rfl) rfl (ix1 r)
      = ∑ j : Fin 1024, src (ix2 r j) := by
  refine (Ideal.multiReduction_add_single src _ Gen.reduces_S1024x1024_S1024 _ _ (ix1 r)).trans ?_
  exact Finset.sum_congr rfl fun k _ => congrArg src (lift_row _ r k)

section Step

variable (kb qb vb : Vec Ideal S1x1024x256 .bf16) (mk : Vec Ideal S1x1024x1024 .i32)
  (m l : Vec Ideal S1024x1 .f32) (acc : Vec Ideal S1024x256 .f32) (r j : Fin 1024) (e : Fin 256)

def sRow (kb qb : Vec Ideal S1x1024x256 .bf16) (mk : Vec Ideal S1x1024x1024 .i32) (r : Fin 1024) : Fin 1024 → EReal :=
  fun j => if mk (ix3 0 r j) = 0#32 then ⊥ else ∑ d : Fin 256, qb (ix3 0 r d) * kb (ix3 0 j d)

theorem pay9_apply : Gen.k1_pay9 (F := Ideal) kb qb mk (ix2 r j) = sRow kb qb mk r j := by
  unfold Gen.k1_pay9 sRow
  rw [select_apply, broadcast_apply, neg_big_eq, matmul_qk_apply]
  show Scalar.select (IntOp.cmpi .eq (shapeCast S1024x1024 mk Gen.shapeCasts_S1x1024x1024_S1024x1024 (ix2 r j)) 0#32) _ _ = _
  rw [shapeCast_1ab_ab_apply, select_eq_zero]
  simp only [shapeCast_1ab_ab_apply]

theorem pay10_apply : Gen.k1_pay10 (F := Ideal) kb qb mk m (ix2 r 0) = Cert.Attn.mNext (m (ix2 r 0)) (sRow kb qb mk r) := by
  unfold Gen.k1_pay10 Cert.Attn.mNext
  rw [maximumf_apply, shapeCast_a_a1_apply, rowMax_apply]
  exact congrArg (fun f : Fin 1024 → EReal => max (m (ix2 r 0)) (Cert.Attn.rowMax f)) (funext fun j => pay9_apply kb qb mk r j)

theorem mNew_apply : Gen.k1_pay3 (F := Ideal) (Gen.k1_pay10 (F := Ideal) kb qb mk m) (ix2 r 0)
    = Cert.Attn.mNext (m (ix2 r 0)) (sRow kb qb mk r) := by
  unfold Gen.k1_pay3
  rw [shapeCast_self]
  exact pay10_apply kb qb mk m r

theorem pay11_apply : Gen.k1_pay11 (F := Ideal) kb qb mk m m (ix2 r 0)
    = Ideal.exp (m (ix2 r 0) - Cert.Attn.mNext (m (ix2 r 0)) (sRow kb qb mk r)) := by
  unfold Gen.k1_pay11
  rw [exp_apply, subf_apply, pay10_apply]

theorem pay12_apply : Gen.k1_pay12 (F := Ideal) kb qb mk m (ix2 r j)
    = Ideal.exp (sRow kb qb mk r j - Cert.Attn.mNext (m (ix2 r 0)) (sRow kb qb mk r)) := by
  unfold Gen.k1_pay12
  rw [exp_apply, subf_apply, pay9_apply, broadcastTo_a1_ab_apply, pay10_apply]

theorem pay13_apply : Gen.k1_pay13 (F := Ideal) kb qb mk m m l (ix2 r 0)
    = Ideal.exp (m (ix2 r 0) - Cert.Attn.mNext (m (ix2 r 0)) (sRow kb qb mk r)) * l (ix2 r 0) := by
  unfold Gen.k1_pay13
  rw [mulf_apply, pay11_apply]

theorem lNew_apply : Gen.k1_pay1 (F := Ideal) (Gen.k1_pay12 (F := Ideal) kb qb mk m) (Gen.k1_pay13 (F := Ideal) kb qb mk m m l) (ix2 r 0)
    = Cert.Attn.lNext (m (ix2 r 0)) (l (ix2 r 0)) (sRow kb qb mk r) := by
  unfold Gen.k1_pay1 Cert.Attn.lNext
  rw [shapeCast_self, addf_apply, shapeCast_a_a1_apply, rowSum_apply, pay13_apply]
  exact congrArg (fun t : EReal => Ideal.exp (m (ix2 r 0) - Cert.Attn.mNext (m (ix2 r 0)) (sRow kb qb mk r)) * l (ix2 r 0) + t)
    (Finset.sum_congr rfl fun j _ => pay12_apply kb qb mk m r j)

theorem pay8_apply (j : Fin 1024) : Gen.k1_pay8 (F := Ideal) vb (ix2 j e) = vb (ix3 0 j e) := by
  unfold Gen.k1_pay8
  rw [shapeCast_1ab_ab_apply]

theorem accNew_apply : Gen.k1_pay2 (F := Ideal) (Gen.k1_pay8 (F := Ideal) vb) (Gen.k1_pay11 (F := Ideal) kb qb mk m m)
      (Gen.k1_pay12 (F := Ideal) kb qb mk m) acc (ix2 r e)
    = Cert.Attn.accNext (m (ix2 r 0)) (acc (ix2 r e)) (sRow kb qb mk r) (fun j => vb (ix3 0 j e)) := by
  unfold Gen.k1_pay2 Cert.Attn.accNext
  rw [shapeCast_self, addf_apply, mulf_apply, broadcastTo_a1_ab_apply, matmul_pv_apply, pay11_apply]
  refine congrArg (fun t : EReal => Ideal.exp (m (ix2 r 0) - Cert.Attn.mNext (m (ix2 r 0)) (sRow kb qb mk r)) * acc (ix2 r e) + t)
    (Finset.sum_congr rfl fun j _ => ?_)
  rw [truncf_apply, pay12_apply, pay8_apply]

end Step

theorem out_apply (accv : Vec Ideal S1024x256 .f32) (lv : Vec Ideal S1024x1 .f32) (r : Fin 1024) (e : Fin 256) :
    Gen.k1_pay4 (F := Ideal) accv lv (ix3 0 r e) = Ideal.div (accv (ix2 r e)) (lv (ix2 r 0)) := by
  unfold Gen.k1_pay4
  rw [shapeCast_ab_1ab_apply, divf_apply, broadcastTo_a1_ab_apply]

theorem mInit_apply (r : Fin 1024) : Gen.k1_pay5 (F := Ideal) (ix2 r 0) = ⊥ := by
  unfold Gen.k1_pay5
  rw [shapeCast_self, broadcast_apply]
  exact ofBits_neg_inf

theorem lInit_apply (r : Fin 1024) : Gen.k1_pay6 (F := Ideal) (ix2 r 0) = 0 := by
  unfold Gen.k1_pay6
  rw [shapeCast_self, broadcast_apply]
  exact Ideal.ofBits_zero_f32

theorem accInit_apply (r : Fin 1024) (e : Fin 256) : Gen.k1_pay7 (F := Ideal) (ix2 r e) = 0 := by
  unfold Gen.k1_pay7
  rw [shapeCast_self, broadcast_apply]
  exact Ideal.ofBits_zero_f32

end Cert.KernelIdeal.FlashValue

end
-- ==== Proof.FlashInduct.lean ====
import proofs.«410878_j7164005449951_3_alg».proof.Proof.FlashRegionIdeal
import proofs.«410878_j7164005449951_3_alg».proof.Proof.FlashPieces
import proofs.«410878_j7164005449951_3_alg».proof.Proof.FlashBlocks
import proofs.«410878_j7164005449951_3_alg».proof.Proof.FlashCoords
import proofs.«410878_j7164005449951_3_alg».proof.Proof.FlashPayload

set_option maxRecDepth 16384

noncomputable section

namespace Cert.KernelIdeal.FlashInduct

open Cert.KernelIdeal Cert.KernelIdeal.Gen Cert.KernelIdeal.Hand Cert.KernelIdeal.FlashCoords Cert.KernelIdeal.FlashValue Cert.KernelIdeal.FlashBlocks
open Idealize.ShloMosaic Idealize.ShloMosaic.TcCoe Idealize.SL.Sem Idealize.ShloMosaic.ValueIdx

def prev (t : Fin cfg1.N) : Fin cfg1.N := ⟨t.val - 1, Nat.lt_of_le_of_lt (Nat.sub_le _ _) t.isLt⟩

theorem kstep_le (t : Fin cfg1.N) : t.val % 4 + 1 ≤ 4 := by omega

theorem batchOf_prev (t : Fin cfg1.N) (h0 : ¬t.val % 4 = 0) : batchOf (prev t) = batchOf t :=
  Fin.ext (by show (t.val - 1) / 16 = t.val / 16; omega)
theorem qBlockOf_prev (t : Fin cfg1.N) (h0 : ¬t.val % 4 = 0) : qBlockOf (prev t) = qBlockOf t :=
  Fin.ext (by show (t.val - 1) / 4 % 4 = t.val / 4 % 4; omega)
theorem qRow_prev (t : Fin cfg1.N) (h0 : ¬t.val % 4 = 0) (r : Fin 1024) : qRow (prev t) r = qRow t r := by
  unfold qRow; rw [qBlockOf_prev t h0]
theorem kstep_prev (t : Fin cfg1.N) (h0 : ¬t.val % 4 = 0) : (prev t).val % 4 + 1 = t.val % 4 := by
  show (t.val - 1) % 4 + 1 = t.val % 4; omega

theorem running_congr (s v : Fin 4096 → EReal) {j j' : ℕ} (e : j = j') (h : j ≤ 4) (h' : j' ≤ 4) :
    Cert.Attn.running s v j h = Cert.Attn.running s v j' h' := by subst e; rfl

theorem running_step (s v : Fin 4096 → EReal) (t : Fin cfg1.N) :
    Cert.Attn.running s v (t.val % 4 + 1) (kstep_le t)
      = (Cert.Attn.mNext (Cert.Attn.running s v (t.val % 4) (Nat.le_of_succ_le (kstep_le t))).1 (fun j => s (kRow t j)),
         Cert.Attn.lNext (Cert.Attn.running s v (t.val % 4) (Nat.le_of_succ_le (kstep_le t))).1
           (Cert.Attn.running s v (t.val % 4) (Nat.le_of_succ_le (kstep_le t))).2.1 (fun j => s (kRow t j)),
         Cert.Attn.accNext (Cert.Attn.running s v (t.val % 4) (Nat.le_of_succ_le (kstep_le t))).1
           (Cert.Attn.running s v (t.val % 4) (Nat.le_of_succ_le (kstep_le t))).2.2 (fun j => s (kRow t j)) (fun j => v (kRow t j))) :=
  Cert.Attn.running_succ s v (t.val % 4) (kstep_le t)

section Region
variable (V : (c : Dev nD) → (b : Ref sig .tc) → Buf (Elt Ideal) ((c : Thread nD τ).loc b)) (c : Dev nD)

abbrev kB (t : Fin cfg1.N) : Vec Ideal S1x1024x256 .bf16 := View.ld (iblk1 V c 1 t) (kvRect (grid1.coords t))
abbrev vB (t : Fin cfg1.N) : Vec Ideal S1x1024x256 .bf16 := View.ld (iblk1 V c 2 t) (kvRect (grid1.coords t))
abbrev qB (t : Fin cfg1.N) : Vec Ideal S1x1024x256 .bf16 := iblk1 V c 0 t
abbrev mB (t : Fin cfg1.N) : Vec Ideal S1x1024x1024 .i32 := iblk1 V c 3 t

abbrev sOf (t : Fin cfg1.N) (r : Fin 1024) : Fin 4096 → EReal :=
  sArr (V c main_v0_0) (V c main_v0_1) (V c main_arg1) (batchOf t) (qRow t r)
abbrev vOf (t : Fin cfg1.N) (e : Fin 256) : Fin 4096 → EReal := vArr (V c main_v0_2) (batchOf t) e

theorem sRow_blocks (t : Fin cfg1.N) (r : Fin 1024) :
    sRow (kB V c t) (qB V c t) (mB V c t) r = fun j => sOf V c t r (kRow t j) := by
  funext j
  unfold sRow sOf sArr
  have hm : mB V c t (ix3 0 r j) = V c main_arg1 (ix3 (batchOf t) (qRow t r) (kRow t j)) := mblk_apply V c t r j
  have hq : ∀ d : Fin 256, qB V c t (ix3 0 r d) = V c main_v0_0 (ix3 (batchOf t) (qRow t r) d) := fun d => qblk_apply V c t r d
  have hk : ∀ d : Fin 256, kB V c t (ix3 0 j d) = V c main_v0_1 (ix3 (batchOf t) (kRow t j) d) := fun d => kblk_apply V c t j d
  rw [hm]
  simp only [hq, hk]

theorem vcol_blocks (t : Fin cfg1.N) (e : Fin 256) :
    (fun j : Fin 1024 => vB V c t (ix3 0 j e)) = fun j => vOf V c t e (kRow t j) :=
  funext fun j => vblk_apply V c t j e

theorem step_apply (t : Fin cfg1.N) (xs0 xs1 : Vec Ideal S1024x1 .f32) (xs2 : Vec Ideal S1024x256 .f32)
    (p : EReal × EReal × EReal) (r : Fin 1024) (e : Fin 256)
    (h0 : xs0 (ix2 r 0) = p.1) (h1 : xs1 (ix2 r 0) = p.2.1) (h2 : xs2 (ix2 r e) = p.2.2) :
    k1_pay3 (F := Ideal) (k1_pay10 (F := Ideal) (kB V c t) (qB V c t) (mB V c t) xs0) (ix2 r 0)
        = Cert.Attn.mNext p.1 (fun j => sOf V c t r (kRow t j))
    ∧ k1_pay1 (F := Ideal) (k1_pay12 (F := Ideal) (kB V c t) (qB V c t) (mB V c t) xs0)
          (k1_pay13 (F := Ideal) (kB V c t) (qB V c t) (mB V c t) xs0 xs0 xs1) (ix2 r 0)
        = Cert.Attn.lNext p.1 p.2.1 (fun j => sOf V c t r (kRow t j))
    ∧ k1_pay2 (F := Ideal) (k1_pay8 (F := Ideal) (vB V c t)) (k1_pay11 (F := Ideal) (kB V c t) (qB V c t) (mB V c t) xs0 xs0)
          (k1_pay12 (F := Ideal) (kB V c t) (qB V c t) (mB V c t) xs0) xs2 (ix2 r e)
        = Cert.Attn.accNext p.1 p.2.2 (fun j => sOf V c t r (kRow t j)) (fun j => vOf V c t e (kRow t j)) := by
  rw [mNew_apply, lNew_apply, accNew_apply, sRow_blocks, vcol_blocks, h0, h1, h2]
  exact ⟨rfl, rfl, rfl⟩

end Region

section Induct
variable (V : (c : Dev nD) → (b : Ref sig .tc) → Buf (Elt Ideal) ((c : Thread nD τ).loc b)) (c : Dev nD)

abbrev AtRow (p : R4 (F := Ideal)) (q : EReal × EReal × EReal) (r : Fin 1024) (e : Fin 256) : Prop :=
  p.2.1 (ix2 r 0) = q.1 ∧ p.2.2.1 (ix2 r 0) = q.2.1 ∧ p.2.2.2 (ix2 r e) = q.2.2

/-- After point `t` the carried buffers hold, at every row and column, the running triple after the point's key block. -/
def Holds (t : Fin cfg1.N) : Prop := ∀ (r : Fin 1024) (e : Fin 256),
    AtRow (outsAt1 (F := Ideal) V c t.val t.isLt) (Cert.Attn.running (sOf V c t r) (vOf V c t e) (t.val % 4 + 1) (kstep_le t)) r e

theorem holds_first (t : Fin cfg1.N) (h0 : t.val % 4 = 0) : Holds V c t := by
  intro r e
  unfold AtRow
  have h1 : ¬t.val % 4 = 3 := by omega
  rw [outsAt1_A V c t h0 h1]
  unfold atA atP
  dsimp only
  rw [sout1_A_0_eq, sout1_A_1_eq, sout1_A_2_eq, running_step]
  have hp : Cert.Attn.running (sOf V c t r) (vOf V c t e) (t.val % 4) (Nat.le_of_succ_le (kstep_le t)) = (⊥, 0, 0) :=
    running_congr _ _ h0 _ (Nat.zero_le 4)
  rw [hp]
  exact step_apply V c t (k1_pay5 (F := Ideal)) (k1_pay6 (F := Ideal)) (k1_pay7 (F := Ideal)) (⊥, 0, 0) r e
    (mInit_apply r) (lInit_apply r) (accInit_apply r e)

theorem prev_triple (t : Fin cfg1.N) (h0 : ¬t.val % 4 = 0) (ih : Holds V c (prev t)) (r : Fin 1024) (e : Fin 256) :
    AtRow (outsAt1 (F := Ideal) V c (prev t).val (prev t).isLt)
      (Cert.Attn.running (sOf V c t r) (vOf V c t e) (t.val % 4) (Nat.le_of_succ_le (kstep_le t))) r e := by
  have hs : sOf V c (prev t) r = sOf V c t r := by unfold sOf; rw [batchOf_prev t h0, qRow_prev t h0]
  have hv : vOf V c (prev t) e = vOf V c t e := by unfold vOf; rw [batchOf_prev t h0]
  have hr := running_congr (sOf V c t r) (vOf V c t e) (kstep_prev t h0) (kstep_le (prev t)) (Nat.le_of_succ_le (kstep_le t))
  have h := ih r e
  rw [hs, hv, hr] at h
  exact h

theorem holds_later (t : Fin cfg1.N) (h0 : ¬t.val % 4 = 0) (ih : Holds V c (prev t)) : Holds V c t := by
  intro r e
  unfold AtRow
  obtain ⟨i0, i1, i2⟩ := prev_triple V c t h0 ih r e
  by_cases h1 : t.val % 4 = 3
  · rw [outsAt1_C V c t h0 h1]
    unfold atC atP
    dsimp only
    rw [sout1_C_0_eq, sout1_C_1_eq, sout1_C_2_eq, running_step]
    exact step_apply V c t _ _ _ _ r e i0 i1 i2
  · rw [outsAt1_B V c t h0 h1]
    unfold atB atP
    dsimp only
    rw [sout1_B_0_eq, sout1_B_1_eq, sout1_B_2_eq, running_step]
    exact step_apply V c t _ _ _ _ r e i0 i1 i2

theorem holds_all : ∀ (n : ℕ) (hn : n < cfg1.N), Holds V c ⟨n, hn⟩
  | 0, hn => holds_first V c ⟨0, hn⟩ (Nat.zero_mod 4)
  | n + 1, hn => by
    by_cases h0 : (n + 1) % 4 = 0
    · exact holds_first V c ⟨n + 1, hn⟩ h0
    · have e : prev ⟨n + 1, hn⟩ = ⟨n, Nat.lt_of_succ_lt hn⟩ := Fin.ext (show n + 1 - 1 = n by omega)
      exact holds_later V c ⟨n + 1, hn⟩ h0 (e ▸ holds_all n (Nat.lt_of_succ_lt hn))

/-- At a query block's last key block the output block holds weighted sum / normaliser after the four key blocks. -/
theorem out_block (t : Fin cfg1.N) (h3 : t.val % 4 = 3) (r : Fin 1024) (e : Fin 256) :
    (outsAt1 (F := Ideal) V c t.val t.isLt).1 (ix3 0 r e)
      = Ideal.div (Cert.Attn.running (sArr (V c main_v0_0) (V c main_v0_1) (V c main_arg1) (batchOf t) (qRow t r))
            (vArr (V c main_v0_2) (batchOf t) e) 4 le_rfl).2.2
          (Cert.Attn.running (sArr (V c main_v0_0) (V c main_v0_1) (V c main_arg1) (batchOf t) (qRow t r))
            (vArr (V c main_v0_2) (batchOf t) e) 4 le_rfl).2.1 := by
  have h0 : ¬t.val % 4 = 0 := by omega
  obtain ⟨i0, i1, i2⟩ := prev_triple V c t h0 (holds_all V c (prev t).val (prev t).isLt) r e
  obtain ⟨-, s1, s2⟩ := step_apply V c t _ _ _ _ r e i0 i1 i2
  have hr := running_congr (sOf V c t r) (vOf V c t e) (show t.val % 4 + 1 = 4 by omega) (kstep_le t) le_rfl
  rw [outsAt1_C V c t h0 h3]
  unfold atC atP
  dsimp only
  rw [out1_C_4_eq, out_apply, ← hr, running_step]
  exact congrArg₂ Ideal.div s2 s1

end Induct

end Cert.KernelIdeal.FlashInduct

end
-- ==== Proof.FlashArray.lean ====
import proofs.«410878_j7164005449951_3_alg».proof.Proof.FlashRegionIdeal
import proofs.«410878_j7164005449951_3_alg».proof.Proof.FlashCoords
import Idealize.ShloMosaic.Lib.Pipeline.Value
import Idealize.ShloMosaic.Lib.ValueIdx

noncomputable section

namespace Cert.KernelIdeal.FlashArray

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand Cert.KernelIdeal.FlashCoords

theorem idx_out : ∀ t : Fin cfg1.N,
    win1_4.index t (0 : Fin 3) = t.val / 16 ∧ win1_4.index t (1 : Fin 3) = t.val / 4 % 4 ∧ win1_4.index t (2 : Fin 3) = 0 :=
  (by decide +kernel : ∀ t : Fin grid1.N, _)

section Arrays
variable (V : (c : Dev nD) → (b : Ref sig .tc) → Buf (Elt Ideal) ((c : Thread nD τ).loc b))

theorem flushed_out (c : Dev nD) (Gf : S4x4096x256.Idx → EReal)
    (hG : ∀ (t : Fin cfg1.N), t.val % 4 = 3 → ∀ (r : Fin 1024) (e : Fin 256),
      (outsAt1 (F := Ideal) V c t.val t.isLt).1 (ix3 0 r e) = Gf (ix3 (batchOf t) (qRow t r) e))
    (t : Fin cfg1.N) (hf : (cfg1.win 4).flush t = true) :
    (dat1 (F := Ideal) V c).flushed 4 t = ((cfg1.win 4).blk t).view.read (Elt Ideal) Gf := by
  have h3 : t.val % 4 = 3 := (flush1_4 t).mp hf
  show (cfg1.win 4).cut (grid1.coords t) ((dat1 (F := Ideal) V c).after 4 t) = _
  rw [after1_4]
  funext j
  show (outsAt1 (F := Ideal) V c t.val t.isLt).1 (win1_4.xinj (grid1.coords t) j)
    = Gf (((cfg1.win 4).blk t).view.emb j)
  obtain ⟨i0, i1, i2⟩ := idx_out t
  have hj0 : (j 0).val < 1 := (j 0).isLt
  obtain ⟨a, r, e, hx⟩ : ∃ (a : Fin 1) (r : Fin 1024) (e : Fin 256), win1_4.xinj (grid1.coords t) j = ix3 a r e :=
    ⟨_, _, _, eq_ix3 (win1_4.xinj (grid1.coords t) j)⟩
  have hr : r.val = (j 1).val := congrArg (fun y : S1x1024x256.Idx => (y 1).val) hx.symm
  have he : e.val = (j 2).val := congrArg (fun y : S1x1024x256.Idx => (y 2).val) hx.symm
  obtain rfl : a = 0 := Subsingleton.elim _ _
  rw [hx, hG t h3 r e]
  refine congrArg Gf (funext fun b => Fin.ext ?_)
  match b with
  | ⟨0, _⟩ => show t.val / 16 = win1_4.index t (0 : Fin 3) * 1 + 1 * (j 0).val; omega
  | ⟨1, _⟩ => show t.val / 4 % 4 * 1024 + r.val = win1_4.index t (1 : Fin 3) * 1024 + 1 * (j 1).val; omega
  | ⟨2, _⟩ => show e.val = win1_4.index t (2 : Fin 3) * 256 + 1 * (j 2).val; omega

theorem mem_blk_out (t : Fin cfg1.N) (i : S4x4096x256.Idx) :
    i ∈ ((cfg1.win 4).blk t).view.set ↔ ∀ a : Fin 3, win1_4.index t a * S1x1024x256.size a ≤ (i a).val ∧ (i a).val < win1_4.index t a * S1x1024x256.size a + S1x1024x256.size a := by
  show i ∈ ((View.whole main_v1).slice (win1_4.rect t)).set ↔ _
  rw [View.set_slice_whole, Rect.mem_set_unit]
  exact Iff.rfl

theorem cover_out (i : S4x4096x256.Idx) :
    ∃ t : Fin cfg1.N, (cfg1.win 4).flush t = true ∧ i ∈ ((cfg1.win 4).blk t).view.set := by
  have h0 : (i 0).val < 4 := (i 0).isLt
  have h1 : (i 1).val < 4096 := (i 1).isLt
  have h2 : (i 2).val < 256 := (i 2).isLt
  have hN : cfg1.N = 64 := N_1
  obtain ⟨t, ht⟩ : ∃ t : Fin cfg1.N, t.val = (i 0).val * 16 + (i 1).val / 1024 * 4 + 3 :=
    ⟨⟨(i 0).val * 16 + (i 1).val / 1024 * 4 + 3, by rw [hN]; omega⟩, rfl⟩
  refine ⟨t, (flush1_4 t).mpr (by omega), ?_⟩
  rw [mem_blk_out]
  obtain ⟨i0, i1, i2⟩ := idx_out t
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 1024 ≤ (i 1).val ∧ (i 1).val < win1_4.index t (1 : Fin 3) * 1024 + 1024; omega
  | ⟨2, _⟩ => show win1_4.index t (2 : Fin 3) * 256 ≤ (i 2).val ∧ (i 2).val < win1_4.index t (2 : Fin 3) * 256 + 256; omega

/-- The sixteen blocks written back cover the output array, so it is the function each written block is a block of. -/
theorem arr_out (c : Dev nD) (Gf : (⟨3, ![4, 4096, 256]⟩ : Shape).Idx → EReal)
    (hG : ∀ (t : Fin cfg1.N), t.val % 4 = 3 → ∀ (r : Fin 1024) (e : Fin 256),
      (outsAt1 (F := Ideal) V c t.val t.isLt).1 (ix3 0 r e) = Gf (ix3 (batchOf t) (qRow t r) e)) :
    (dat1 (F := Ideal) V c).arrAt 4 cfg1.N = Gf :=
  (dat1 (F := Ideal) V c).arrAt_eq_of_cover 4 Gf (fun t hf => flushed_out V c Gf hG t hf) cover_out

end Arrays

end Cert.KernelIdeal.FlashArray

end
-- ==== Proof.PreFacts.lean ====
import proofs.«410878_j7164005449951_3_alg».proof.Pre_finite_inputs
import Idealize.ShloMosaic.Lib.ReduceAll
import Idealize.ShloMosaic.Lib.ValueIdx
import Idealize.ShloMosaic.Lib.StableHlo.Predicate
import Idealize.ShloMosaic.PureOps.Ideal.Laws

noncomputable section

namespace Cert.PreFacts

open Idealize.ShloMosaic Idealize.ShloMosaic.ValueIdx Cert.Pre_finite_inputs

instance subsingleton_S_ : Subsingleton S_.Idx := ⟨fun a b => funext fun d => d.elim0⟩

theorem inf_word : Ideal.ofBits .f32 0x7F800000#32 = (⊤ : EReal) := by
  simp [Ideal.ofBits, Ideal.ieee]

theorem finite_of_abs_lt_top (x : EReal) (h : max x (-x) < ⊤) : x ≠ ⊤ ∧ x ≠ ⊥ := by
  constructor
  · rintro rfl
    simp at h
  · rintro rfl
    simp at h

theorem finite_of_cmp (x : Ideal .f32)
    (h : FloatOps.cmpf .olt (FloatOps.hostAbsf x) (FloatOps.ofBits (F := Ideal) .f32 0x7F800000#32) = 1#1) :
    x ≠ ⊤ ∧ x ≠ ⊥ := by
  have h' : Ideal.cmp .olt (max x (-x)) (Ideal.ofBits .f32 0x7F800000#32) = 1#1 := h
  rw [inf_word] at h'
  refine finite_of_abs_lt_top x ?_
  by_contra hn
  simp [Ideal.cmp, hn] at h'

theorem all_finite {s : Shape} {axes : List (Fin s.rank)} (a : FVec Ideal s .f32)
    (hb : S_.BroadcastsInDim s (![] : Fin 0 → Fin s.rank)) (hr : s.ReducesTo axes S_) (h0 : 0 < S_.numel)
    (e : Host.reduce IntOp.andi
          (cmpf .olt (Host.absf a) (broadcastInDim s ![] hb (constant (F := Ideal) S_ .f32 0x7F800000#32)))
          (constantI S_ 1 1#1) hr h0 ix0 = 1#1) (i : s.Idx) : a i ≠ ⊤ ∧ a i ≠ ⊥ := by
  have hi := Host.reduce_andi_all _ _ hr h0 ix0 e i
  exact finite_of_cmp (a i) (by
    rw [cmpf_apply, StableHlo.Predicate.bcast_scalar hb h0] at hi
    exact hi)

theorem foldl_ori_eq_one {ι : Type} (f : ι → BitVec 1) :
    ∀ (l : List ι) (init : BitVec 1), l.foldl (fun r n => IntOp.ori r (f n)) init = 1#1 → init = 1#1 ∨ ∃ n ∈ l, f n = 1#1
  | [], init, h => Or.inl h
  | a :: l, init, h => by
    rcases foldl_ori_eq_one f l _ h with h1 | ⟨n, hn, hf⟩
    · rcases IntOp.ori_eq_one.1 h1 with hi | ha
      · exact Or.inl hi
      · exact Or.inr ⟨a, List.mem_cons_self, ha⟩
    · exact Or.inr ⟨n, List.mem_cons_of_mem _ hn, hf⟩

theorem reduce_ori_eq_one {s t u : Shape} {axes : List (Fin s.rank)} (x : s.Idx → BitVec 1) (init : u.Idx → BitVec 1)
    (h : s.ReducesTo axes t) (hu : 0 < u.numel) (hinit : init (Shape.Idx.first hu) = 0#1)
    (j : t.Idx) (e : Host.reduce IntOp.ori x init h hu j = 1#1) : ∃ i : s.Idx, h.drop i = j ∧ x i = 1#1 := by
  rw [Host.reduce_eq_foldl] at e
  rcases foldl_ori_eq_one x _ _ e with h1 | ⟨i, hi, hx⟩
  · rw [hinit] at h1
    exact absurd h1 (by decide)
  · rw [List.mem_filter] at hi
    exact ⟨i, by simpa using hi.2, hx⟩

theorem eq_ix3_of_drop (hr : S4x4096x4096.ReducesTo [2] S4x4096) (i : S4x4096x4096.Idx) (b : Fin 4) (n : Fin 4096)
    (hd : hr.drop i = ix2 b n) : i = ix3 b n (i 2) := by
  have e0 : ((hr.drop i 0 : Fin _) : Nat) = i 0 := Shape.ReducesTo.drop_apply_val_of_eq hr i 0 0
  have e1 : ((hr.drop i 1 : Fin _) : Nat) = i 1 := Shape.ReducesTo.drop_apply_val_of_eq hr i 1 1
  rw [hd] at e0 e1
  funext d
  match d with
  | ⟨0, _⟩ => exact Fin.ext e0.symm
  | ⟨1, _⟩ => exact Fin.ext e1.symm
  | ⟨2, _⟩ => rfl

theorem mask_row_nonzero (a1 : IVec S4x4096x4096 32)
    (hb : S_.BroadcastsInDim S4x4096x4096 (![] : Fin 0 → Fin S4x4096x4096.rank))
    (hr2 : S4x4096x4096.ReducesTo [2] S4x4096) (hr01 : S4x4096.ReducesTo [0, 1] S_) (h0 : 0 < S_.numel)
    (e : Host.reduce IntOp.andi
          (Host.reduce IntOp.ori (cmpi .ne a1 (broadcastInDim S4x4096x4096 ![] hb (constantI S_ 32 0#32)))
            (constantI S_ 1 0#1) hr2 h0)
          (constantI S_ 1 1#1) hr01 h0 ix0 = 1#1) (b : Fin 4) (n : Fin 4096) :
    ∃ k : Fin 4096, a1 (ix3 b n k) ≠ 0#32 := by
  have hrow := Host.reduce_andi_all _ _ hr01 h0 ix0 e (ix2 b n)
  obtain ⟨i, hd, hx⟩ := reduce_ori_eq_one _ _ hr2 h0 rfl (ix2 b n) hrow
  have hne : a1 i ≠ 0#32 := by
    have hx' : IntOp.cmpi .ne (a1 i) (broadcastInDim S4x4096x4096 ![] hb (constantI S_ 32 0#32) i) = 1#1 := hx
    rw [StableHlo.Predicate.bcast_scalar hb h0] at hx'
    exact IntOp.cmpi_ne.1 hx'
  exact ⟨i 2, fun hz => hne ((congrArg a1 (eq_ix3_of_drop hr2 i b n hd)).trans hz)⟩

theorem andi_ix0 (x y : IVec S_ 1) (h : andi x y ix0 = 1#1) : x ix0 = 1#1 ∧ y ix0 = 1#1 :=
  IntOp.andi_eq_one.1 h

/-- The precondition read back: every float input is real, and every mask row has a nonzero word. -/
theorem of_pre [Cert.Pre_finite_inputs.Facts] (a0 : FVec Ideal S4x4096x256 .f32) (a1 : IVec S4x4096x4096 32)
    (a2 : FVec Ideal S256x256 .f32) (a3 : FVec Ideal S256 .f32) (a4 : FVec Ideal S256x256 .f32)
    (a5 : FVec Ideal S256 .f32) (a6 : FVec Ideal S256x256 .f32) (a7 : FVec Ideal S256 .f32)
    (h : Cert.Pre_finite_inputs.fn (F := Ideal) a0 a1 a2 a3 a4 a5 a6 a7 = fun _ => 1#1) :
    (∀ i, a0 i ≠ ⊤ ∧ a0 i ≠ ⊥) ∧ (∀ i, a2 i ≠ ⊤ ∧ a2 i ≠ ⊥) ∧ (∀ i, a3 i ≠ ⊤ ∧ a3 i ≠ ⊥)
      ∧ (∀ i, a4 i ≠ ⊤ ∧ a4 i ≠ ⊥) ∧ (∀ i, a5 i ≠ ⊤ ∧ a5 i ≠ ⊥) ∧ (∀ i, a6 i ≠ ⊤ ∧ a6 i ≠ ⊥)
      ∧ (∀ i, a7 i ≠ ⊤ ∧ a7 i ≠ ⊥)
      ∧ (∀ (b : Fin 4) (n : Fin 4096), ∃ k : Fin 4096, a1 (ix3 b n k) ≠ 0#32) := by
  have h1 := congrFun h ix0
  dsimp only [fn, fn_part1, fn_part2] at h1
  obtain ⟨h33, h37⟩ := andi_ix0 _ _ h1
  obtain ⟨h28, h32⟩ := andi_ix0 _ _ h33
  obtain ⟨h23, h27⟩ := andi_ix0 _ _ h28
  obtain ⟨h18, h22⟩ := andi_ix0 _ _ h23
  obtain ⟨h13, h17⟩ := andi_ix0 _ _ h18
  obtain ⟨h8, h12⟩ := andi_ix0 _ _ h13
  obtain ⟨h3, h7⟩ := andi_ix0 _ _ h8
  exact ⟨all_finite a0 _ _ _ h3, all_finite a2 _ _ _ h7, all_finite a3 _ _ _ h12, all_finite a4 _ _ _ h17,
    all_finite a5 _ _ _ h22, all_finite a6 _ _ _ h27, all_finite a7 _ _ _ h32,
    mask_row_nonzero a1 _ _ _ _ h37⟩

end Cert.PreFacts

end
-- ==== Proof.Bridge.lean ====
import proofs.«410878_j7164005449951_3_alg».proof.Proof.RunIdeal
import proofs.«410878_j7164005449951_3_alg».proof.Proof.ProjArrays
import proofs.«410878_j7164005449951_3_alg».proof.Proof.FlashInduct
import proofs.«410878_j7164005449951_3_alg».proof.Proof.FlashArray
import proofs.«410878_j7164005449951_3_alg».proof.Proof.PreFacts
import proofs.«410878_j7164005449951_3_alg».proof.Defs

noncomputable section

namespace Cert.KernelIdeal.Bridge

open Cert.KernelIdeal Cert.KernelIdeal.Gen Cert.KernelIdeal.Hand Cert.KernelIdeal.FlashCoords
open Idealize.ShloMosaic Idealize.ShloMosaic.TcCoe Idealize.ShloMosaic.ValueIdx Idealize.SL.Sem

variable (m : (ℓ : Loc nD τ sig) → Buf (Elt Ideal) ℓ)

variable (c : Dev nD)

abbrev xQ := Cert.Attn.proj (m ((c.tc : Thread nD τ).loc main_arg0)) (m ((c.tc : Thread nD τ).loc main_arg2)) (m ((c.tc : Thread nD τ).loc main_arg3))
abbrev xK := Cert.Attn.proj (m ((c.tc : Thread nD τ).loc main_arg0)) (m ((c.tc : Thread nD τ).loc main_arg4)) (m ((c.tc : Thread nD τ).loc main_arg5))
abbrev xV := Cert.Attn.proj (m ((c.tc : Thread nD τ).loc main_arg0)) (m ((c.tc : Thread nD τ).loc main_arg6)) (m ((c.tc : Thread nD τ).loc main_arg7))
abbrev attn : Cert.Attn.SX.Idx → EReal := Cert.Attn.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

def rowQuot : Cert.Attn.SX.Idx → EReal := fun i =>
  Ideal.div
    (Cert.Attn.running (sArr (E1 m c main_v0_0) (E1 m c main_v0_1) (E1 m c main_arg1) (i 0) (i 1)) (vArr (E1 m c main_v0_2) (i 0) (i 2)) 4 le_rfl).2.2
    (Cert.Attn.running (sArr (E1 m c main_v0_0) (E1 m c main_v0_1) (E1 m c main_arg1) (i 0) (i 1)) (vArr (E1 m c main_v0_2) (i 0) (i 2)) 4 le_rfl).2.1

theorem arr_eq_rowQuot : (dat1 (F := Ideal) (E1 m) c).arrAt 4 cfg1.N = rowQuot m c :=
  Cert.KernelIdeal.FlashArray.arr_out (E1 m) c (rowQuot m c) fun t h3 r e =>
    Cert.KernelIdeal.FlashInduct.out_block (E1 m) c t h3 r e

/-- With finite inputs and a nonzero mask word in every row, the blockwise quotient is masked softmax attention. -/
theorem rowQuot_eq_G [hPre : Cert.Pre_finite_inputs.Facts] (hpre : Cert.Pre_KernelIdeal m) :
    rowQuot m c = attn m c := by
  obtain ⟨hx, hWq, hbq, hWk, hbk, hWv, hbv, hmask⟩ := Cert.PreFacts.of_pre _ _ _ _ _ _ _ _ (hpre c)
  funext i
  obtain ⟨b, n, e, rfl⟩ : ∃ (b : Fin 4) (n : Fin 4096) (e : Fin 256), i = ix3 b n e := ⟨i 0, i 1, i 2, eq_ix3 i⟩
  have eQ : E1 m c main_v0_0 = fun j => xQ m c (j 0) (j 1) (j 2) * (((1 / 16 : ℝ)) : EReal) :=
    (E1_main_v0_0 m c).trans (Cert.KernelIdeal.ProjArrays.arrQ (E0 m) c)
  have eK : E1 m c main_v0_1 = fun j => xK m c (j 0) (j 1) (j 2) :=
    (E1_main_v0_1 m c).trans (Cert.KernelIdeal.ProjArrays.arrK (E0 m) c)
  have eV : E1 m c main_v0_2 = fun j => xV m c (j 0) (j 1) (j 2) :=
    (E1_main_v0_2 m c).trans (Cert.KernelIdeal.ProjArrays.arrV (E0 m) c)
  have eM : E1 m c main_arg1 = m ((c.tc : Thread nD τ).loc main_arg1) := E1_main_arg1 m c
  have hQ := fun b n d => Cert.Attn.proj_finite _ _ _ hx hWq hbq b n d
  have hK := fun b n d => Cert.Attn.proj_finite _ _ _ hx hWk hbk b n d
  have hV := fun b n d => Cert.Attn.proj_finite _ _ _ hx hWv hbv b n d
  have es : sArr (E1 m c main_v0_0) (E1 m c main_v0_1) (E1 m c main_arg1) b n
      = fun k => Cert.Attn.score (xQ m c) (xK m c) (m ((c.tc : Thread nD τ).loc main_arg1)) b n k := by
    funext k
    refine Eq.trans ?_ (Cert.Attn.scoreScaled_eq_score (xQ m c) (xK m c) (m ((c.tc : Thread nD τ).loc main_arg1)) hQ hK b n k)
    rw [eQ, eK, eM]
    rfl
  have ev : vArr (E1 m c main_v0_2) b e = fun k => xV m c b k e := by
    rw [eV]; rfl
  show Ideal.div
      (Cert.Attn.running (sArr (E1 m c main_v0_0) (E1 m c main_v0_1) (E1 m c main_arg1) b n) (vArr (E1 m c main_v0_2) b e) 4 le_rfl).2.2
      (Cert.Attn.running (sArr (E1 m c main_v0_0) (E1 m c main_v0_1) (E1 m c main_arg1) b n) (vArr (E1 m c main_v0_2) b e) 4 le_rfl).2.1 = _
  rw [es, ev]
  exact (Cert.Attn.running_eq_attnRow (fun k => Cert.Attn.score (xQ m c) (xK m c) (m ((c.tc : Thread nD τ).loc main_arg1)) b n k) (fun k => xV m c b k e)
    (fun k => Cert.Attn.score_ne_top _ _ _ hQ hK b n k)
    (by obtain ⟨k, hk⟩ := hmask b n; exact ⟨k, Cert.Attn.score_ne_bot _ _ _ hQ hK b n k hk⟩)
    (fun k => hV b k e)).trans rfl

theorem result_eq_G [hPre : Cert.Pre_finite_inputs.Facts] (hpre : Cert.Pre_KernelIdeal m) :
    (dat1 (F := Ideal) (E1 m) c).arrAt 4 cfg1.N = attn m c :=
  (arr_eq_rowQuot m c).trans (rowQuot_eq_G m c hpre)

end Cert.KernelIdeal.Bridge

end
-- ==== Proof.RefValue.lean ====
import proofs.«410878_j7164005449951_3_alg».proof.Proof.Gen.ReferenceIdeal.Read
import proofs.«410878_j7164005449951_3_alg».proof.Proof.AttnSpec
import Idealize.ShloMosaic.PureOps.Reduce
import Idealize.ShloMosaic.Lib.StableHlo.Predicate

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.Attn

theorem ofBits_sixteen : Ideal.ofBits .f32 0x41800000#32 = ((16 : ℝ) : EReal) := by
  simp [Ideal.ofBits, Ideal.ieee, -EReal.coe_mul]; norm_num

theorem ofBits_neg_inf : Ideal.ofBits .f32 0xFF800000#32 = (⊥ : EReal) := by
  simp [Ideal.ofBits, Ideal.ieee]

theorem ofBits_zero : Ideal.ofBits .f32 0x00000000#32 = (0 : EReal) := by
  simp [Ideal.ofBits, Ideal.ieee]

variable (x0 : (⟨S4x4096x256, .f32⟩ : BufTy).Contents (Elt Ideal)) (x1 : (⟨S4x4096x4096, .i32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal))

theorem v3_eq_proj (W : (⟨S256x256, .f32⟩ : BufTy).Contents (Elt Ideal))
    (bias : (⟨S256, .f32⟩ : BufTy).Contents (Elt Ideal)) (b : Fin 4) (n : Fin 4096) (e : Fin 256) :
    val_main_v3 (F := Ideal) x0 W bias (ix3 b n e) = proj x0 W bias b n e := by
  rw [val_main_v3_apply, val_main_v0_apply, val_main_v2_apply, val_main_v1_apply]
  have hl : ∀ k : Fin 256, lidx_main_v0 (ix3 b n e) k = ix3 b n k := fun k => by
    funext d; match d with | ⟨0, _⟩ => rfl | ⟨1, _⟩ => rfl | ⟨2, _⟩ => rfl
  have hr : ∀ k : Fin 256, ridx_main_v0 (ix3 b n e) k = ix2 e k := fun k => by
    funext d; match d with | ⟨0, _⟩ => rfl | ⟨1, _⟩ => rfl
  have hb : idx_main_v1 (idx_main_v2 (ix3 b n e)) = ix1 e := by
    funext d; match d with | ⟨0, _⟩ => rfl
  simp only [hl, hr, hb]
  rfl

theorem v7_eq_proj (W : (⟨S256x256, .f32⟩ : BufTy).Contents (Elt Ideal))
    (bias : (⟨S256, .f32⟩ : BufTy).Contents (Elt Ideal)) (b : Fin 4) (n : Fin 4096) (e : Fin 256) :
    val_main_v7 (F := Ideal) x0 W bias (ix3 b n e) = proj x0 W bias b n e := v3_eq_proj x0 W bias b n e

theorem v11_eq_proj (W : (⟨S256x256, .f32⟩ : BufTy).Contents (Elt Ideal))
    (bias : (⟨S256, .f32⟩ : BufTy).Contents (Elt Ideal)) (b : Fin 4) (n : Fin 4096) (e : Fin 256) :
    val_main_v11 (F := Ideal) x0 W bias (ix3 b n e) = proj x0 W bias b n e := v3_eq_proj x0 W bias b n e

theorem select_cmpi_eq {α : Type} {w : Nat} (a b : BitVec w) (u v : α) :
    Scalar.select (IntOp.cmpi .eq a b) u v = if a = b then u else v := by
  by_cases h : a = b
  · rw [if_pos h, Predicate.cmpi_eq_iff.mpr h, select_one]
  · rw [if_neg h]
    unfold Scalar.select
    exact if_neg fun hc => h (Predicate.cmpi_eq_iff.mp hc)

theorem v15_eq (b : Fin 4) (n k : Fin 4096) :
    val_main_v15 (F := Ideal) x0 x1 x2 x3 x4 x5 (ix3 b n k)
      = if x1 (ix3 b n k) = 0#32 then ⊥ else ∑ d : Fin 256, proj x0 x2 x3 b n d * proj x0 x4 x5 b k d := by
  rw [val_main_v15_apply, val_main_v14_apply, val_main_v13_apply, val_main_c_apply, val_main_call0_v1_apply,
    val_main_call0_v0_apply, val_main_cst_apply, val_main_v12_apply, select_cmpi_eq]
  have hl : ∀ d : Fin 256, lidx_main_v12 (ix3 b n k) d = ix3 b n d := fun d => by
    funext a; match a with | ⟨0, _⟩ => rfl | ⟨1, _⟩ => rfl | ⟨2, _⟩ => rfl
  have hr : ∀ d : Fin 256, ridx_main_v12 (ix3 b n k) d = ix3 b k d := fun d => by
    funext a; match a with | ⟨0, _⟩ => rfl | ⟨1, _⟩ => rfl | ⟨2, _⟩ => rfl
  simp only [hl, hr, v3_eq_proj, v7_eq_proj, Ideal.ofBits_def, ofBits_neg_inf]

theorem v17_eq (b : Fin 4) (n k : Fin 4096) :
    val_main_v17 (F := Ideal) x0 x1 x2 x3 x4 x5 (ix3 b n k) = score (proj x0 x2 x3) (proj x0 x4 x5) x1 b n k := by
  rw [val_main_v17_apply, val_main_v16_apply, val_main_cst_0_apply, v15_eq, Ideal.hostDivf_def, Ideal.ofBits_def, ofBits_sixteen]
  rfl

theorem reduces_d2 : S4x4096x4096.Reduces [2] S4x4096 := by decide

theorem lift_d2 (b : Fin 4) (n : Fin 4096) (k : Fin (S4x4096x4096.size 2)) :
    reduces_d2.lift (ix2 b n) k = ix3 b n (⟨k.val, k.isLt⟩ : Fin 4096) := by
  funext c; apply Fin.ext
  fin_cases c <;> rfl

theorem v18_eq (b : Fin 4) (n : Fin 4096) :
    val_main_v18 (F := Ideal) x0 x1 x2 x3 x4 x5 (ix2 b n)
      = rowMax (fun k => score (proj x0 x2 x3) (proj x0 x4 x5) x1 b n k) := by
  unfold val_main_v18
  rw [Host.reduce_eq_fold_single FloatOps.maximumf _ _ reducesTo_S4x4096x4096_S4x4096_d2 reduces_d2 h_S_]
  have hf : (val_main_v17 (F := Ideal) x0 x1 x2 x3 x4 x5 ∘ reduces_d2.lift (ix2 b n))
      = fun k : Fin 4096 => score (proj x0 x2 x3) (proj x0 x4 x5) x1 b n k :=
    funext fun k => (congrArg (val_main_v17 (F := Ideal) x0 x1 x2 x3 x4 x5) (lift_d2 b n k)).trans (v17_eq x0 x1 x2 x3 x4 x5 b n _)
  rw [hf, val_main_cst_1_apply, Ideal.ofBits_def, ofBits_neg_inf]
  rfl

theorem v20_eq (b : Fin 4) (n : Fin 4096) :
    val_main_v20 (F := Ideal) x0 x1 x2 x3 x4 x5 (ix2 b n)
      = rowMax (fun k => score (proj x0 x2 x3) (proj x0 x4 x5) x1 b n k) := by
  rw [val_main_v20_apply, val_main_v19_apply, val_main_cst_2_apply, v18_eq, Ideal.maximumf_def, Ideal.ofBits_def, ofBits_neg_inf]
  exact max_eq_right bot_le

theorem v24_eq (b : Fin 4) (n k : Fin 4096) :
    val_main_v24 (F := Ideal) x0 x1 x2 x3 x4 x5 (ix3 b n k)
      = Ideal.exp (score (proj x0 x2 x3) (proj x0 x4 x5) x1 b n k - rowMax (fun k' => score (proj x0 x2 x3) (proj x0 x4 x5) x1 b n k')) := by
  rw [val_main_v24_apply, val_main_v23_apply, val_main_v22_apply, val_main_v21_apply, v17_eq]
  have hi : idx_main_v21 (idx_main_v22 (ix3 b n k)) = ix2 b n := by
    funext a; match a with | ⟨0, _⟩ => rfl | ⟨1, _⟩ => rfl
  rw [hi, v20_eq, Ideal.hostUnary_exp_def, Ideal.subf_def]

theorem v25_eq (b : Fin 4) (n : Fin 4096) :
    val_main_v25 (F := Ideal) x0 x1 x2 x3 x4 x5 (ix2 b n)
      = ∑ k : Fin 4096, Ideal.exp (score (proj x0 x2 x3) (proj x0 x4 x5) x1 b n k - rowMax (fun k' => score (proj x0 x2 x3) (proj x0 x4 x5) x1 b n k')) := by
  rw [val_main_v25_apply, val_main_cst_3_apply, Ideal.ofBits_def, ofBits_zero, zero_add]
  refine Finset.sum_congr rfl fun k _ => ?_
  have hi : idx_main_v25 (ix2 b n) k = ix3 b n k := by
    funext a; match a with | ⟨0, _⟩ => rfl | ⟨1, _⟩ => rfl | ⟨2, _⟩ => rfl
  rw [hi, v24_eq]

theorem v28_eq (b : Fin 4) (n k : Fin 4096) :
    val_main_v28 (F := Ideal) x0 x1 x2 x3 x4 x5 (ix3 b n k)
      = Ideal.div (Ideal.exp (score (proj x0 x2 x3) (proj x0 x4 x5) x1 b n k - rowMax (fun k' => score (proj x0 x2 x3) (proj x0 x4 x5) x1 b n k')))
          (∑ k'' : Fin 4096, Ideal.exp (score (proj x0 x2 x3) (proj x0 x4 x5) x1 b n k'' - rowMax (fun k' => score (proj x0 x2 x3) (proj x0 x4 x5) x1 b n k'))) := by
  rw [val_main_v28_apply, val_main_v27_apply, val_main_v26_apply, v24_eq]
  have hi : idx_main_v26 (idx_main_v27 (ix3 b n k)) = ix2 b n := by
    funext a; match a with | ⟨0, _⟩ => rfl | ⟨1, _⟩ => rfl
  rw [hi, v25_eq, Ideal.hostDivf_def]

theorem v29_eq
    (b : Fin 4) (n : Fin 4096) (e : Fin 256) :
    val_main_v29 (F := Ideal) x0 x1 x2 x3 x4 x5 x6 x7 (ix3 b n e) = G x0 x1 x2 x3 x4 x5 x6 x7 (ix3 b n e) := by
  rw [val_main_v29_apply]
  unfold G attnRow
  refine Finset.sum_congr rfl fun k _ => ?_
  have hl : lidx_main_v29 (ix3 b n e) k = ix3 b n k := by
    funext a; match a with | ⟨0, _⟩ => rfl | ⟨1, _⟩ => rfl | ⟨2, _⟩ => rfl
  have hr : ridx_main_v29 (ix3 b n e) k = ix3 b k e := by
    funext a; match a with | ⟨0, _⟩ => rfl | ⟨1, _⟩ => rfl | ⟨2, _⟩ => rfl
  rw [hl, hr, v28_eq, v11_eq_proj]

/-- The reference's composed term is masked softmax attention of the projections, index by index. -/
theorem val_eq_G :
    val_main_v29 (F := Ideal) x0 x1 x2 x3 x4 x5 x6 x7 = G x0 x1 x2 x3 x4 x5 x6 x7 := by
  funext i
  have hi : i = ix3 (i 0) (i 1) (i 2) := eq_ix3 (n0 := 4) (n1 := 4096) (n2 := 256) i
  calc val_main_v29 (F := Ideal) x0 x1 x2 x3 x4 x5 x6 x7 i
      = val_main_v29 (F := Ideal) x0 x1 x2 x3 x4 x5 x6 x7 (ix3 (i 0) (i 1) (i 2)) := congrArg _ hi
    _ = G x0 x1 x2 x3 x4 x5 x6 x7 (ix3 (i 0) (i 1) (i 2)) := v29_eq x0 x1 x2 x3 x4 x5 x6 x7 (i 0) (i 1) (i 2)
    _ = G x0 x1 x2 x3 x4 x5 x6 x7 i := congrArg _ hi.symm

theorem ref_eq_G (m : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v29 (F := Ideal) m c
      = Cert.Attn.G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) :=
  (val_main_v29_eq (F := Ideal) m c).trans (val_eq_G _ _ _ _ _ _ _ _)

end Cert.ReferenceIdeal.RefValue

end
-- ==== Proof.lean ====
import proofs.«410878_j7164005449951_3_alg».proof.Defs
import proofs.«410878_j7164005449951_3_alg».proof.Proof.Gen.Kernel
import proofs.«410878_j7164005449951_3_alg».proof.Proof.Gen.Kernel.Skeleton
import proofs.«410878_j7164005449951_3_alg».proof.Proof.Gen.Kernel.Launch
import proofs.«410878_j7164005449951_3_alg».proof.Proof.Gen.Kernel.Regions
import proofs.«410878_j7164005449951_3_alg».proof.Proof.Gen.Kernel.Points
import proofs.«410878_j7164005449951_3_alg».proof.Proof.Gen.KernelIdeal
import proofs.«410878_j7164005449951_3_alg».proof.Proof.Gen.KernelIdeal.Skeleton
import proofs.«410878_j7164005449951_3_alg».proof.Proof.Gen.KernelIdeal.Launch
import proofs.«410878_j7164005449951_3_alg».proof.Proof.Gen.KernelIdeal.Regions
import proofs.«410878_j7164005449951_3_alg».proof.Proof.Gen.KernelIdeal.Points
import proofs.«410878_j7164005449951_3_alg».proof.Proof.Gen.ReferenceIdeal
import proofs.«410878_j7164005449951_3_alg».proof.Proof.Gen.Pre_finite_inputs
import proofs.«410878_j7164005449951_3_alg».proof.Proof.Gen.ReferenceIdeal.Run
import proofs.«410878_j7164005449951_3_alg».proof.Proof.Gen.ReferenceIdeal.Read
import proofs.«410878_j7164005449951_3_alg».proof.Proof.RunBits
import proofs.«410878_j7164005449951_3_alg».proof.Proof.RunIdeal
import proofs.«410878_j7164005449951_3_alg».proof.Proof.Bridge
import proofs.«410878_j7164005449951_3_alg».proof.Proof.RefValue
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The one rewrite of the idealization names the mask's fill constant -∞. -/
theorem preserves : Cert.preserves_Kernel_KernelIdeal :=
  IdealRules.named_const.statement Cert.KernelIdeal.κ "neg_big" .f32 0xF149F2CA#32 ⊥ rfl

/-- Both programs end with the result at masked softmax attention of the arguments: the kernel by its run and the bridge, the reference by its run read back. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => (Cert.KernelIdeal.Hand.dat1 (F := Ideal) (Cert.KernelIdeal.Hand.E1 m) c).arrAt 4 Cert.KernelIdeal.cfg1.N,
    Cert.KernelIdeal.Hand.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.ref_eq_G, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact (Cert.KernelIdeal.Bridge.result_eq_G m c hpre).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
